-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S14336x4096 : Shape := ⟨2, ![14336, 4096]⟩
abbrev S917504 : Shape := ⟨1, ![917504]⟩
abbrev S4096x14336 : Shape := ⟨2, ![4096, 14336]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S917504 : S_.BroadcastsInDim S917504 (![] : Fin 0 → Fin S917504.rank)
  reducesTo_S917504_S_d0 : S917504.ReducesTo [0] S_
  bcast_S_S14336x4096 : S_.BroadcastsInDim S14336x4096 (![] : Fin 0 → Fin S14336x4096.rank)
  reducesTo_S14336x4096_S_d0_1 : S14336x4096.ReducesTo [0, 1] S_
  bcast_S_S4096x14336 : S_.BroadcastsInDim S4096x14336 (![] : Fin 0 → Fin S4096x14336.rank)
  reducesTo_S4096x14336_S_d0_1 : S4096x14336.ReducesTo [0, 1] S_

variable [Facts]

def fn_part2 {F : FTy → Type} [FloatOps F] (main_arg5 : IVec S4096x14336 32) (main_v32 : IVec S_ 1) (main_c_12 : IVec S_ 32) : IVec S_ 1 :=
  let main_v33 : IVec S4096x14336 32 := broadcastInDim S4096x14336 ![] bcast_S_S4096x14336 main_c_12
  let main_v34 : IVec S4096x14336 1 := cmpi .sge main_arg5 main_v33
  let main_c_13 : IVec S_ 32 := constantI S_ 32 16#32
  let main_v35 : IVec S4096x14336 32 := broadcastInDim S4096x14336 ![] bcast_S_S4096x14336 main_c_13
  let main_v36 : IVec S4096x14336 1 := cmpi .slt main_arg5 main_v35
  let main_v37 : IVec S4096x14336 1 := andi main_v34 main_v36
  let main_c_14 : IVec S_ 1 := constantI S_ 1 1#1
  let main_v38 : IVec S_ 1 := (fun x v => Host.reduce IntOp.andi x v reducesTo_S4096x14336_S_d0_1 h_S_) main_v37 main_c_14
  let main_v39 : IVec S_ 1 := andi main_v32 main_v38
  main_v39

def fn_part1 {F : FTy → Type} [FloatOps F] (main_arg1 : IVec S14336x4096 32) (main_arg3 : IVec S14336x4096 32) (main_arg5 : IVec S4096x14336 32) (main_v13 : IVec S_ 1) (main_v16 : IVec S917504 1) : IVec S_ 1 :=
  let main_c_5 : IVec S_ 1 := constantI S_ 1 1#1
  let main_v17 : IVec S_ 1 := (fun x v => Host.reduce IntOp.andi x v reducesTo_S917504_S_d0 h_S_) main_v16 main_c_5
  let main_v18 : IVec S_ 1 := andi main_v13 main_v17
  let main_c_6 : IVec S_ 32 := constantI S_ 32 0#32
  let main_v19 : IVec S14336x4096 32 := broadcastInDim S14336x4096 ![] bcast_S_S14336x4096 main_c_6
  let main_v20 : IVec S14336x4096 1 := cmpi .sge main_arg1 main_v19
  let main_c_7 : IVec S_ 32 := constantI S_ 32 16#32
  let main_v21 : IVec S14336x4096 32 := broadcastInDim S14336x4096 ![] bcast_S_S14336x4096 main_c_7
  let main_v22 : IVec S14336x4096 1 := cmpi .slt main_arg1 main_v21
  let main_v23 : IVec S14336x4096 1 := andi main_v20 main_v22
  let main_c_8 : IVec S_ 1 := constantI S_ 1 1#1
  let main_v24 : IVec S_ 1 := (fun x v => Host.reduce IntOp.andi x v reducesTo_S14336x4096_S_d0_1 h_S_) main_v23 main_c_8
  let main_v25 : IVec S_ 1 := andi main_v18 main_v24
  let main_c_9 : IVec S_ 32 := constantI S_ 32 0#32
  let main_v26 : IVec S14336x4096 32 := broadcastInDim S14336x4096 ![] bcast_S_S14336x4096 main_c_9
  let main_v27 : IVec S14336x4096 1 := cmpi .sge main_arg3 main_v26
  let main_c_10 : IVec S_ 32 := constantI S_ 32 16#32
  let main_v28 : IVec S14336x4096 32 := broadcastInDim S14336x4096 ![] bcast_S_S14336x4096 main_c_10
  let main_v29 : IVec S14336x4096 1 := cmpi .slt main_arg3 main_v28
  let main_v30 : IVec S14336x4096 1 := andi main_v27 main_v29
  let main_c_11 : IVec S_ 1 := constantI S_ 1 1#1
  let main_v31 : IVec S_ 1 := (fun x v => Host.reduce IntOp.andi x v reducesTo_S14336x4096_S_d0_1 h_S_) main_v30 main_c_11
  let main_v32 : IVec S_ 1 := andi main_v25 main_v31
  let main_c_12 : IVec S_ 32 := constantI S_ 32 0#32
  fn_part2 (F := F) main_arg5 main_v32 main_c_12

def fn {F : FTy → Type} [FloatOps F] (main_arg0 : FVec F S2x2048x4096 .f32) (main_arg1 : IVec S14336x4096 32) (main_arg2 : FVec F S917504 .f32) (main_arg3 : IVec S14336x4096 32) (main_arg4 : FVec F S917504 .f32) (main_arg5 : IVec S4096x14336 32) (main_arg6 : FVec F S917504 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S917504 .f32 := Host.absf main_arg2
  let main_cst_0 : FVec F S_ .f32 := constant S_ .f32 0x7F800000#32
  let main_v5 : FVec F S917504 .f32 := broadcastInDim S917504 ![] bcast_S_S917504 main_cst_0
  let main_v6 : IVec S917504 1 := cmpf .olt main_v4 main_v5
  let main_c_1 : IVec S_ 1 := constantI S_ 1 1#1
  let main_v7 : IVec S_ 1 := (fun x v => Host.reduce IntOp.andi x v reducesTo_S917504_S_d0 h_S_) main_v6 main_c_1
  let main_v8 : IVec S_ 1 := andi main_v3 main_v7
  let main_v9 : FVec F S917504 .f32 := Host.absf main_arg4
  let main_cst_2 : FVec F S_ .f32 := constant S_ .f32 0x7F800000#32
  let main_v10 : FVec F S917504 .f32 := broadcastInDim S917504 ![] bcast_S_S917504 main_cst_2
  let main_v11 : IVec S917504 1 := cmpf .olt main_v9 main_v10
  let main_c_3 : IVec S_ 1 := constantI S_ 1 1#1
  let main_v12 : IVec S_ 1 := (fun x v => Host.reduce IntOp.andi x v reducesTo_S917504_S_d0 h_S_) main_v11 main_c_3
  let main_v13 : IVec S_ 1 := andi main_v8 main_v12
  let main_v14 : FVec F S917504 .f32 := Host.absf main_arg6
  let main_cst_4 : FVec F S_ .f32 := constant S_ .f32 0x7F800000#32
  let main_v15 : FVec F S917504 .f32 := broadcastInDim S917504 ![] bcast_S_S917504 main_cst_4
  let main_v16 : IVec S917504 1 := cmpf .olt main_v14 main_v15
  fn_part1 (F := F) main_arg1 main_arg3 main_arg5 main_v13 main_v16
-- ==== Kernel.lean ====
abbrev S2x2048x4096 : Shape := ⟨3, ![2, 2048, 4096]⟩
abbrev S14336x4096 : Shape := ⟨2, ![14336, 4096]⟩
abbrev S917504 : Shape := ⟨1, ![917504]⟩
abbrev S4096x14336 : Shape := ⟨2, ![4096, 14336]⟩
abbrev S4096x4096 : Shape := ⟨2, ![4096, 4096]⟩
abbrev S14336x64 : Shape := ⟨2, ![14336, 64]⟩
abbrev S4096x224 : Shape := ⟨2, ![4096, 224]⟩
abbrev S4096x512 : Shape := ⟨2, ![4096, 512]⟩
abbrev S512x512 : Shape := ⟨2, ![512, 512]⟩
abbrev S512x64 : Shape := ⟨2, ![512, 64]⟩
abbrev S512x8 : Shape := ⟨2, ![512, 8]⟩
abbrev S512x8x1 : Shape := ⟨3, ![512, 8, 1]⟩
abbrev S512x8x64 : Shape := ⟨3, ![512, 8, 64]⟩
abbrev S4096x1024 : Shape := ⟨2, ![4096, 1024]⟩
abbrev S512x1024 : Shape := ⟨2, ![512, 1024]⟩
abbrev S512x224 : Shape := ⟨2, ![512, 224]⟩
abbrev S512x16 : Shape := ⟨2, ![512, 16]⟩
abbrev S512x16x1 : Shape := ⟨3, ![512, 16, 1]⟩
abbrev S512x16x64 : Shape := ⟨3, ![512, 16, 64]⟩

abbrev nBuf : Space → Nat
  | .hbm => 15
  | .vmem => 23
  | .smem => 0
  | _ => 0

abbrev bufTy : (tb : Table) → Fin (tcTables nBuf tb) → BufTy
  | .hbm, ⟨0, _⟩ => ⟨S2x2048x4096, .f32⟩
  | .hbm, ⟨1, _⟩ => ⟨S14336x4096, .i32⟩
  | .hbm, ⟨2, _⟩ => ⟨S917504, .f32⟩
  | .hbm, ⟨3, _⟩ => ⟨S14336x4096, .i32⟩
  | .hbm, ⟨4, _⟩ => ⟨S917504, .f32⟩
  | .hbm, ⟨5, _⟩ => ⟨S4096x14336, .i32⟩
  | .hbm, ⟨6, _⟩ => ⟨S917504, .f32⟩
  | .hbm, ⟨7, _⟩ => ⟨S4096x4096, .f32⟩
  | .hbm, ⟨8, _⟩ => ⟨S4096x4096, .bf16⟩
  | .hbm, ⟨9, _⟩ => ⟨S14336x64, .f32⟩
  | .hbm, ⟨10, _⟩ => ⟨S14336x64, .f32⟩
  | .hbm, ⟨11, _⟩ => ⟨S4096x224, .f32⟩
  | .hbm, ⟨12, _⟩ => ⟨S4096x14336, .bf16⟩
  | .hbm, ⟨13, _⟩ => ⟨S4096x4096, .f32⟩
  | .hbm, ⟨14, _⟩ => ⟨S2x2048x4096, .f32⟩
  | .local _ .vmem, ⟨0, _⟩ => ⟨S4096x512, .bf16⟩
  | .local _ .vmem, ⟨1, _⟩ => ⟨S4096x512, .bf16⟩
  | .local _ .vmem, ⟨2, _⟩ => ⟨S512x512, .i32⟩
  | .local _ .vmem, ⟨3, _⟩ => ⟨S512x512, .i32⟩
  | .local _ .vmem, ⟨4, _⟩ => ⟨S512x64, .f32⟩
  | .local _ .vmem, ⟨5, _⟩ => ⟨S512x64, .f32⟩
  | .local _ .vmem, ⟨6, _⟩ => ⟨S512x512, .i32⟩
  | .local _ .vmem, ⟨7, _⟩ => ⟨S512x512, .i32⟩
  | .local _ .vmem, ⟨8, _⟩ => ⟨S512x64, .f32⟩
  | .local _ .vmem, ⟨9, _⟩ => ⟨S512x64, .f32⟩
  | .local _ .vmem, ⟨10, _⟩ => ⟨S4096x512, .bf16⟩
  | .local _ .vmem, ⟨11, _⟩ => ⟨S4096x512, .bf16⟩
  | .local _ .vmem, ⟨12, _⟩ => ⟨S4096x512, .f32⟩
  | .local _ .vmem, ⟨13, _⟩ => ⟨S4096x512, .f32⟩
  | .local _ .vmem, ⟨14, _⟩ => ⟨S4096x1024, .bf16⟩
  | .local _ .vmem, ⟨15, _⟩ => ⟨S4096x1024, .bf16⟩
  | .local _ .vmem, ⟨16, _⟩ => ⟨S512x1024, .i32⟩
  | .local _ .vmem, ⟨17, _⟩ => ⟨S512x1024, .i32⟩
  | .local _ .vmem, ⟨18, _⟩ => ⟨S512x224, .f32⟩
  | .local _ .vmem, ⟨19, _⟩ => ⟨S512x224, .f32⟩
  | .local _ .vmem, ⟨20, _⟩ => ⟨S4096x512, .f32⟩
  | .local _ .vmem, ⟨21, _⟩ => ⟨S4096x512, .f32⟩
  | .local _ .vmem, ⟨22, _⟩ => ⟨S4096x512, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨2, ![28, 8], ![false, false]⟩

def k0_mult1 (i : grid0.Coords) : BitVec 32 :=
  let arg1 : BitVec 32 := BitVec.ofNat 32 (i 1).val
  let c8_i32 : BitVec 32 := 8#32
  let v3 : BitVec 32 := Scalar.muli arg1 c8_i32
  v3
def k0_off1 (i : grid0.Coords) : Fin 2 → Nat :=
  let c0_6 : Index := 0#32
  let arg1 : BitVec 32 := BitVec.ofNat 32 (i 1).val
  let c8_i32 : BitVec 32 := 8#32
  let v3 : BitVec 32 := Scalar.muli arg1 c8_i32
  let v4 : BitVec 32 := v3
  let v9 : Index := Scalar.indexCast v4
  ![0, v9.toNat]
def k0_cond2 (i : grid0.Coords) : BitVec 1 :=
  let arg1 : BitVec 32 := BitVec.ofNat 32 (i 1).val
  let c7_i32_65 : BitVec 32 := 7#32
  let v161 : BitVec 1 := Scalar.cmpi .eq arg1 c7_i32_65
  let v162 : BitVec 32 := Scalar.extui v161
  let c0_i32_66 : BitVec 32 := 0#32
  let v163 : BitVec 1 := Scalar.cmpi .ne v162 c0_i32_66
  v163

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4096x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![8, 14], ![false, false]⟩

def k1_mult1 (i : grid1.Coords) : BitVec 32 :=
  let arg1 : BitVec 32 := BitVec.ofNat 32 (i 1).val
  let c16_i32 : BitVec 32 := 16#32
  let v3 : BitVec 32 := Scalar.muli arg1 c16_i32
  v3
def k1_off1 (i : grid1.Coords) : Fin 2 → Nat :=
  let c0_4 : Index := 0#32
  let arg1 : BitVec 32 := BitVec.ofNat 32 (i 1).val
  let c16_i32 : BitVec 32 := 16#32
  let v3 : BitVec 32 := Scalar.muli arg1 c16_i32
  let v4 : BitVec 32 := v3
  let v8 : Index := Scalar.indexCast v4
  ![0, v8.toNat]
def k1_cond2 (i : grid1.Coords) : BitVec 1 :=
  let arg1 : BitVec 32 := BitVec.ofNat 32 (i 1).val
  let c13_i32_25 : BitVec 32 := 13#32
  let v84 : BitVec 1 := Scalar.cmpi .eq arg1 c13_i32_25
  let v85 : BitVec 32 := Scalar.extui v84
  let c0_i32_26 : BitVec 32 := 0#32
  let v86 : BitVec 1 := Scalar.cmpi .ne v85 c0_i32_26
  v86

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S4096x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S512x1024 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x224 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S4096x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S2x2048x4096_S4096x4096 : S2x2048x4096.ShapeCasts S4096x4096
  bitsLt_bf16_f32 : FTy.bits .bf16 < FTy.bits .f32
  shapeCasts_S917504_S14336x64 : S917504.ShapeCasts S14336x64
  shapeCasts_S917504_S4096x224 : S917504.ShapeCasts S4096x224
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S512x512_S512x512_0_0 : ∀ a, (![0, 0] : Fin 2 → Nat) a + S512x512.size a ≤ S512x512.size a
  h_S512x512 : 0 < S512x512.numel
  h_S512x8 : 0 < S512x8.numel
  shapeCasts_S512x8_S512x8 : S512x8.ShapeCasts S512x8
  shapeCasts_S512x8_S512x8x1 : S512x8.ShapeCasts S512x8x1
  shapeCasts_S512x8x1_S512x8x1 : S512x8x1.ShapeCasts S512x8x1
  broadcasts_S512x8x1_S512x8x64 : S512x8x1.Broadcasts S512x8x64
  shapeCasts_S512x8x64_S512x512 : S512x8x64.ShapeCasts S512x512
  packedbf16_S4096x512_S4096x512_0_0 : (Rect.unit (s := S4096x512) ![0, 0] S4096x512.size inb_S4096x512_S4096x512_0_0).PackedRows (EltTy.packing .bf16)
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S512x1024_S512x1024_0_0 : ∀ a, (![0, 0] : Fin 2 → Nat) a + S512x1024.size a ≤ S512x1024.size a
  h_S512x1024 : 0 < S512x1024.numel
  h_S512x16 : 0 < S512x16.numel
  shapeCasts_S512x16_S512x16 : S512x16.ShapeCasts S512x16
  shapeCasts_S512x16_S512x16x1 : S512x16.ShapeCasts S512x16x1
  shapeCasts_S512x16x1_S512x16x1 : S512x16x1.ShapeCasts S512x16x1
  broadcasts_S512x16x1_S512x16x64 : S512x16x1.Broadcasts S512x16x64
  shapeCasts_S512x16x64_S512x1024 : S512x16x64.ShapeCasts S512x1024
  shapeCasts_S4096x4096_S2x2048x4096 : S4096x4096.ShapeCasts S2x2048x4096
  dot_S4096x512_S512x512_S4096x512_1_1_0_0_n_n_wf : DotDims.WF S4096x512 S512x512 S4096x512 [1] [1] [0] [0] [] []
  dot_S4096x1024_S512x1024_S4096x512_1_1_0_0_n_n_wf : DotDims.WF S4096x1024 S512x1024 S4096x512 [1] [1] [0] [0] [] []
  hrank0 : 0 < grid0.rank
  k0_mult1_dvd : ∀ i : grid0.Coords, 8 ∣ (k0_mult1 i).toNat
  k0_off1_inb : ∀ i : grid0.Coords, ∀ a, (k0_off1 i) a + S512x8.size a ≤ S512x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S4096x4096.size a
  hwx0_0 : ∀ i : grid0.Coords, EltTy.bits .bf16 = 32 ∨ (Rect.block (s := S4096x4096) S4096x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S14336x4096.size a
  hwx0_1 : ∀ i : grid0.Coords, EltTy.bits .i32 = 32 ∨ (Rect.block (s := S14336x4096) S512x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S14336x64.size a
  hwx0_2 : ∀ i : grid0.Coords, EltTy.bits .f32 = 32 ∨ (Rect.block (s := S14336x64) S512x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S14336x4096.size a
  hwx0_3 : ∀ i : grid0.Coords, EltTy.bits .i32 = 32 ∨ (Rect.block (s := S14336x4096) S512x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x64.size a ≤ S14336x64.size a
  hwx0_4 : ∀ i : grid0.Coords, EltTy.bits .f32 = 32 ∨ (Rect.block (s := S14336x64) S512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x512.size a ≤ S4096x14336.size a
  hwx0_5 : ∀ i : grid0.Coords, EltTy.bits .bf16 = 32 ∨ (Rect.block (s := S4096x14336) S4096x512.size (cc0_transform_5 i) (hinb0_5 i)).WholeWords (EltTy.packing .bf16)
  hrank1 : 0 < grid1.rank
  k1_mult1_dvd : ∀ i : grid1.Coords, 16 ∣ (k1_mult1 i).toNat
  k1_off1_inb : ∀ i : grid1.Coords, ∀ a, (k1_off1 i) a + S512x16.size a ≤ S512x224.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x1024.size a ≤ S4096x14336.size a
  hwx1_0 : ∀ i : grid1.Coords, EltTy.bits .bf16 = 32 ∨ (Rect.block (s := S4096x14336) S4096x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S4096x14336.size a
  hwx1_1 : ∀ i : grid1.Coords, EltTy.bits .i32 = 32 ∨ (Rect.block (s := S4096x14336) S512x1024.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x224.size a ≤ S4096x224.size a
  hwx1_2 : ∀ i : grid1.Coords, EltTy.bits .f32 = 32 ∨ (Rect.block (s := S4096x224) S512x224.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x512.size a ≤ S4096x4096.size a
  hwx1_3 : ∀ i : grid1.Coords, EltTy.bits .f32 = 32 ∨ (Rect.block (s := S4096x4096) S4096x512.size (cc1_transform_3 i) (hinb1_3 i)).WholeWords (EltTy.packing .f32)

variable [Facts₀]

def dot_S4096x512_S512x512_S4096x512_1_1_0_0_n_n : DotDims S4096x512 S512x512 S4096x512 where
  lhsContracting := [1]
  rhsContracting := [1]
  lhsNonContracting := [0]
  rhsNonContracting := [0]
  lhsBatch := []
  rhsBatch := []
  wf := dot_S4096x512_S512x512_S4096x512_1_1_0_0_n_n_wf
def dot_S4096x1024_S512x1024_S4096x512_1_1_0_0_n_n : DotDims S4096x1024 S512x1024 S4096x512 where
  lhsContracting := [1]
  rhsContracting := [1]
  lhsNonContracting := [0]
  rhsNonContracting := [0]
  lhsBatch := []
  rhsBatch := []
  wf := dot_S4096x1024_S512x1024_S4096x512_1_1_0_0_n_n_wf

abbrev win0_0 : Pipeline.Window sig grid0 :=
  Pipeline.Window.ofSpec (Memref.whole main_v1) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S4096x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v5) S4096x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S512x224.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S4096x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S14336x4096 : Shape := ⟨2, ![14336, 4096]⟩
abbrev S917504 : Shape := ⟨1, ![917504]⟩
abbrev S4096x14336 : Shape := ⟨2, ![4096, 14336]⟩
abbrev S16 : Shape := ⟨1, ![16]⟩
abbrev S58720256 : Shape := ⟨1, ![58720256]⟩
abbrev S_ : Shape := ⟨0, ![]⟩
abbrev S58720256x1 : Shape := ⟨2, ![58720256, 1]⟩
abbrev S917504x64 : Shape := ⟨2, ![917504, 64]⟩
abbrev S917504x1 : Shape := ⟨2, ![917504, 1]⟩
abbrev S2x2048x14336 : Shape := ⟨3, ![2, 2048, 14336]⟩

abbrev nBuf : Space → Nat
  | .hbm => 66
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S14336x4096, .i32⟩
  | .hbm, ⟨2, _⟩ => ⟨S917504, .f32⟩
  | .hbm, ⟨3, _⟩ => ⟨S14336x4096, .i32⟩
  | .hbm, ⟨4, _⟩ => ⟨S917504, .f32⟩
  | .hbm, ⟨5, _⟩ => ⟨S4096x14336, .i32⟩
  | .hbm, ⟨6, _⟩ => ⟨S917504, .f32⟩
  | .hbm, ⟨7, _⟩ => ⟨S16, .f32⟩
  | .hbm, ⟨8, _⟩ => ⟨S58720256, .i32⟩
  | .hbm, ⟨9, _⟩ => ⟨S_, .i32⟩
  | .hbm, ⟨10, _⟩ => ⟨S58720256, .i32⟩
  | .hbm, ⟨11, _⟩ => ⟨S58720256, .i1⟩
  | .hbm, ⟨12, _⟩ => ⟨S_, .i32⟩
  | .hbm, ⟨13, _⟩ => ⟨S58720256, .i32⟩
  | .hbm, ⟨14, _⟩ => ⟨S58720256, .i32⟩
  | .hbm, ⟨15, _⟩ => ⟨S58720256, .i32⟩
  | .hbm, ⟨16, _⟩ => ⟨S58720256x1, .i32⟩
  | .hbm, ⟨17, _⟩ => ⟨S58720256, .f32⟩
  | .hbm, ⟨18, _⟩ => ⟨S917504x64, .f32⟩
  | .hbm, ⟨19, _⟩ => ⟨S917504x1, .f32⟩
  | .hbm, ⟨20, _⟩ => ⟨S917504x64, .f32⟩
  | .hbm, ⟨21, _⟩ => ⟨S917504x64, .f32⟩
  | .hbm, ⟨22, _⟩ => ⟨S14336x4096, .f32⟩
  | .hbm, ⟨23, _⟩ => ⟨S58720256, .i32⟩
  | .hbm, ⟨24, _⟩ => ⟨S_, .i32⟩
  | .hbm, ⟨25, _⟩ => ⟨S58720256, .i32⟩
  | .hbm, ⟨26, _⟩ => ⟨S58720256, .i1⟩
  | .hbm, ⟨27, _⟩ => ⟨S_, .i32⟩
  | .hbm, ⟨28, _⟩ => ⟨S58720256, .i32⟩
  | .hbm, ⟨29, _⟩ => ⟨S58720256, .i32⟩
  | .hbm, ⟨30, _⟩ => ⟨S58720256, .i32⟩
  | .hbm, ⟨31, _⟩ => ⟨S58720256x1, .i32⟩
  | .hbm, ⟨32, _⟩ => ⟨S58720256, .f32⟩
  | .hbm, ⟨33, _⟩ => ⟨S917504x64, .f32⟩
  | .hbm, ⟨34, _⟩ => ⟨S917504x1, .f32⟩
  | .hbm, ⟨35, _⟩ => ⟨S917504x64, .f32⟩
  | .hbm, ⟨36, _⟩ => ⟨S917504x64, .f32⟩
  | .hbm, ⟨37, _⟩ => ⟨S14336x4096, .f32⟩
  | .hbm, ⟨38, _⟩ => ⟨S58720256, .i32⟩
  | .hbm, ⟨39, _⟩ => ⟨S_, .i32⟩
  | .hbm, ⟨40, _⟩ => ⟨S58720256, .i32⟩
  | .hbm, ⟨41, _⟩ => ⟨S58720256, .i1⟩
  | .hbm, ⟨42, _⟩ => ⟨S_, .i32⟩
  | .hbm, ⟨43, _⟩ => ⟨S58720256, .i32⟩
  | .hbm, ⟨44, _⟩ => ⟨S58720256, .i32⟩
  | .hbm, ⟨45, _⟩ => ⟨S58720256, .i32⟩
  | .hbm, ⟨46, _⟩ => ⟨S58720256x1, .i32⟩
  | .hbm, ⟨47, _⟩ => ⟨S58720256, .f32⟩
  | .hbm, ⟨48, _⟩ => ⟨S917504x64, .f32⟩
  | .hbm, ⟨49, _⟩ => ⟨S917504x1, .f32⟩
  | .hbm, ⟨50, _⟩ => ⟨S917504x64, .f32⟩
  | .hbm, ⟨51, _⟩ => ⟨S917504x64, .f32⟩
  | .hbm, ⟨52, _⟩ => ⟨S4096x14336, .f32⟩
  | .hbm, ⟨53, _⟩ => ⟨S2x2048x14336, .f32⟩
  | .hbm, ⟨54, _⟩ => ⟨S2x2048x14336, .f32⟩
  | .hbm, ⟨55, _⟩ => ⟨S2x2048x14336, .f32⟩
  | .hbm, ⟨56, _⟩ => ⟨S2x2048x14336, .f32⟩
  | .hbm, ⟨57, _⟩ => ⟨S_, .f32⟩
  | .hbm, ⟨58, _⟩ => ⟨S2x2048x14336, .f32⟩
  | .hbm, ⟨59, _⟩ => ⟨S2x2048x14336, .f32⟩
  | .hbm, ⟨60, _⟩ => ⟨S_, .f32⟩
  | .hbm, ⟨61, _⟩ => ⟨S2x2048x14336, .f32⟩
  | .hbm, ⟨62, _⟩ => ⟨S2x2048x14336, .f32⟩
  | .hbm, ⟨63, _⟩ => ⟨S2x2048x14336, .f32⟩
  | .hbm, ⟨64, _⟩ => ⟨S2x2048x14336, .f32⟩
  | .hbm, ⟨65, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_3 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_call0_v5 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩

abbrev nD : Nat := 1
abbrev τ : Topo := Topo.v7x

variable {F : FTy → Type} [FloatOps F]

class Facts₀ : Prop where
  shapeCasts_S14336x4096_S58720256 : S14336x4096.ShapeCasts S58720256
  bcast_S_S58720256 : S_.BroadcastsInDim S58720256 (![] : Fin 0 → Fin S58720256.rank)
  bcast_S58720256_S58720256x1_0 : S58720256.BroadcastsInDim S58720256x1 (![0] : Fin 1 → Fin S58720256x1.rank)
  shapeCasts_S58720256_S917504x64 : S58720256.ShapeCasts S917504x64
  bcast_S917504_S917504x1_0 : S917504.BroadcastsInDim S917504x1 (![0] : Fin 1 → Fin S917504x1.rank)
  bcast_S917504x1_S917504x64_0_1 : S917504x1.BroadcastsInDim S917504x64 (![0, 1] : Fin 2 → Fin S917504x64.rank)
  shapeCasts_S917504x64_S14336x4096 : S917504x64.ShapeCasts S14336x4096
  shapeCasts_S4096x14336_S58720256 : S4096x14336.ShapeCasts S58720256
  shapeCasts_S917504x64_S4096x14336 : S917504x64.ShapeCasts S4096x14336
  bcast_S_S2x2048x14336 : S_.BroadcastsInDim S2x2048x14336 (![] : Fin 0 → Fin S2x2048x14336.rank)
  gather_S16_S58720256x1_S58720256_n_0_n_n_0_1_1_wf : GatherDims.WF S16 S58720256x1 S58720256 [] [0] [] [0] [] 1 ![1]
  dot_S2x2048x4096_S14336x4096_S2x2048x14336_2_1_01_0_n_n_wf : DotDims.WF S2x2048x4096 S14336x4096 S2x2048x14336 [2] [1] [0, 1] [0] [] []
  dot_S2x2048x14336_S4096x14336_S2x2048x4096_2_1_01_0_n_n_wf : DotDims.WF S2x2048x14336 S4096x14336 S2x2048x4096 [2] [1] [0, 1] [0] [] []

variable [Facts₀]

def gather_S16_S58720256x1_S58720256_n_0_n_n_0_1_1 : GatherDims S16 S58720256x1 S58720256 where
  offsetDims := []
  collapsedSliceDims := [0]
  operandBatchingDims := []
  startIndicesBatchingDims := []
  startIndexMap := [0]
  indexVectorDim := 1
  sliceSizes := ![1]
  wf := gather_S16_S58720256x1_S58720256_n_0_n_n_0_1_1_wf
def dot_S2x2048x4096_S14336x4096_S2x2048x14336_2_1_01_0_n_n : DotDims S2x2048x4096 S14336x4096 S2x2048x14336 where
  lhsContracting := [2]
  rhsContracting := [1]
  lhsNonContracting := [0, 1]
  rhsNonContracting := [0]
  lhsBatch := []
  rhsBatch := []
  wf := dot_S2x2048x4096_S14336x4096_S2x2048x14336_2_1_01_0_n_n_wf
def dot_S2x2048x14336_S4096x14336_S2x2048x4096_2_1_01_0_n_n : DotDims S2x2048x14336 S4096x14336 S2x2048x4096 where
  lhsContracting := [2]
  rhsContracting := [1]
  lhsNonContracting := [0, 1]
  rhsNonContracting := [0]
  lhsBatch := []
  rhsBatch := []
  wf := dot_S2x2048x14336_S4096x14336_S2x2048x4096_2_1_01_0_n_n_wf

class Facts : Prop extends Facts₀ where

variable [Facts]
-- ==== Proof.K.Shared.lean ====
import proofs.«405638_j50903952392412_1_alg».proof.Proof.Gen.Kernel.Launch
import proofs.«405638_j50903952392412_1_alg».proof.Proof.Gen.Kernel.Skeleton
import proofs.«405638_j50903952392412_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- A whole scoped buffer at some contents. -/
abbrev anyBuf (c : Dev nD) (b : Ref sig .tc) : sProp 𝕄 :=
  iprop(∃ f : Buf (Elt F) ((c : Thread nD τ).loc b), ((c : Thread nD τ).loc b) ↦{fullShare} f)

/-- A list of stored pieces read back through a view of the same shape. -/
abbrev rd {s : Shape} {e : EltTy} (W : View sig .tc .vmem s e) (L : List (View.Piece (Elt F) s e)) : Vec F s e :=
  W.read (Elt F) (W.writes (Elt F) W.junk L)

/-- A buffer rewritten by pieces that cover it holds those pieces read back, whatever it held. -/
theorem owns_writes {s : Shape} {e : EltTy} (c : Dev nD) (M : Memref sig .tc .vmem s e) (W : View sig .tc .vmem s e)
    (L : List (View.Piece (Elt F) s e)) (h : ∀ y, ∃ p ∈ L, y ∈ p.1.set) :
    (iprop(∃ f, M.view.loc (c : Thread nD τ) ↦[M.view.set]{fullShare} M.view.writes (Elt F) f L) : sProp 𝕄)
      ⊢ owns (c : Thread nD τ) M fullShare (rd W L) := by
  unfold owns
  iintro ⟨%f, H⟩
  iexists M.view.writes (Elt F) f L; isplitr
  · ipureintro; exact View.read_writes_of_cover _ _ _ _ _ h
  iexact H

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

theorem liveAt0 : ∀ (t : Fin cfg0.N) (w : Fin cfg0.W), w ≠ 5 → cfg0.idle w (grid0.coords t) = false := by decide +kernel

theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

abbrev ms0_0 (t : Fin cfg0.N) : Memref sig .tc .vmem S4096x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4096x512 .bf16 := win0_5.stage (cfg0.slots t 5)
abbrev hs0_5 (t : Fin cfg0.N) : (ms0_5 t).IsWhole := hstage0_5 ((cfg0.slots t 5).cast nbuf0_5)

abbrev scM0_0 : Memref sig .tc .vmem S4096x512 .f32 := Memref.whole cc0_scratch0
abbrev scM0_1 : Memref sig .tc .vmem S4096x512 .f32 := Memref.whole cc0_scratch1

abbrev VO0_5 : View sig .tc .vmem S4096x512 .bf16 := (Memref.whole cc0_stg5_0 : Memref sig .tc .vmem S4096x512 .bf16).view
abbrev VS0_0 : View sig .tc .vmem S4096x512 .f32 := scM0_0.view
abbrev VS0_1 : View sig .tc .vmem S4096x512 .f32 := scM0_1.view

def others0 (c : Dev nD) : sProp 𝕄 :=
  iprop(anyBuf c cc1_stg0_0 ∗ anyBuf c cc1_stg0_1 ∗ anyBuf c cc1_stg1_0 ∗ anyBuf c cc1_stg1_1 ∗ anyBuf c cc1_stg2_0 ∗ anyBuf c cc1_stg2_1 ∗ anyBuf c cc1_stg3_0 ∗ anyBuf c cc1_stg3_1 ∗ anyBuf c cc1_scratch0)

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ others0 c) ∗ (∃ r, prngReg c r)) := by
  unfold Pipeline.ΦA others0; rw [scopedRest0_eq]; simp only [scM0_0, scM0_1, owns_whole]; try rfl

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 14 = 0 :=
  (by decide +kernel : ∀ t : Fin grid1.N, cond1_0 (grid1.coords t) ↔ t.val % 14 = 0)
abbrev cond1_1 (i : grid1.Coords) : Prop := k1_cond2 i = 1#1
theorem hcond1_1 : ∀ t : Fin cfg1.N, cond1_1 (grid1.coords t) ↔ t.val % 14 = 13 :=
  (by decide +kernel : ∀ t : Fin grid1.N, cond1_1 (grid1.coords t) ↔ t.val % 14 = 13)

theorem liveAt1 : ∀ (t : Fin cfg1.N) (w : Fin cfg1.W), w ≠ 3 → cfg1.idle w (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

abbrev ms1_0 (t : Fin cfg1.N) : Memref sig .tc .vmem S4096x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x224 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4096x512 .f32 := win1_3.stage (cfg1.slots t 3)
abbrev hs1_3 (t : Fin cfg1.N) : (ms1_3 t).IsWhole := hstage1_3 ((cfg1.slots t 3).cast nbuf1_3)

abbrev scM1_0 : Memref sig .tc .vmem S4096x512 .f32 := Memref.whole cc1_scratch0
abbrev VO1_3 : View sig .tc .vmem S4096x512 .f32 := (Memref.whole cc1_stg3_0 : Memref sig .tc .vmem S4096x512 .f32).view
abbrev VS1_0 : View sig .tc .vmem S4096x512 .f32 := scM1_0.view

def others1 (c : Dev nD) : sProp 𝕄 :=
  iprop(anyBuf c cc0_stg0_0 ∗ anyBuf c cc0_stg0_1 ∗ anyBuf c cc0_stg1_0 ∗ anyBuf c cc0_stg1_1 ∗ anyBuf c cc0_stg2_0 ∗ anyBuf c cc0_stg2_1 ∗ anyBuf c cc0_stg3_0 ∗ anyBuf c cc0_stg3_1 ∗ anyBuf c cc0_stg4_0 ∗ anyBuf c cc0_stg4_1 ∗ anyBuf c cc0_stg5_0 ∗ anyBuf c cc0_stg5_1 ∗ anyBuf c cc0_scratch0 ∗ anyBuf c cc0_scratch1)

theorem PhiA1_in (c : Dev nD) :
    (Pipeline.ΦA spec1 c : sProp 𝕄)
      ⊢ iprop(iprop(others1 c ∗ (∃ d, owns (c : Thread nD τ) scM1_0 fullShare d)) ∗ (∃ r, prngReg c r)) := by
  unfold Pipeline.ΦA others1; rw [scopedRest1_eq]; simp only [scM1_0, owns_whole]
  iintro ⟨⟨H1, H2, H3, H4, H5, H6, H7, H8, H9, H10, H11, H12, H13, H14, HS⟩, Hg⟩
  iframe

theorem PhiA1_out (c : Dev nD) :
    iprop(iprop(others1 c ∗ (∃ d, owns (c : Thread nD τ) scM1_0 fullShare d)) ∗ (∃ r, prngReg c r))
      ⊢ (Pipeline.ΦA spec1 c : sProp 𝕄) := by
  unfold Pipeline.ΦA others1; rw [scopedRest1_eq]; simp only [scM1_0, owns_whole]
  iintro ⟨⟨⟨H1, H2, H3, H4, H5, H6, H7, H8, H9, H10, H11, H12, H13, H14⟩, HS⟩, Hg⟩
  iframe

end Cert.Kernel.Hand

end
-- ==== Proof.K.Run0A.lean ====
import proofs.«405638_j50903952392412_1_alg».proof.Proof.K.Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1600000 in

noncomputable def kernelRun0_A (c : Dev nD) (i : grid0.Coords) (arg2 : Memref sig .tc .vmem S4096x512 .bf16) (harg2 : arg2.IsWhole) (arg3 : Memref sig .tc .vmem S512x512 .i32) (harg3 : arg3.IsWhole) (arg4 : Memref sig .tc .vmem S512x64 .f32) (harg4 : arg4.IsWhole) (arg5 : Memref sig .tc .vmem S512x512 .i32) (harg5 : arg5.IsWhole) (arg6 : Memref sig .tc .vmem S512x64 .f32) (harg6 : arg6.IsWhole) (arg7 : Memref sig .tc .vmem S4096x512 .bf16) (harg7 : arg7.IsWhole) (arg8 : Memref sig .tc .vmem S4096x512 .f32) (harg8 : arg8.IsWhole) (arg9 : Memref sig .tc .vmem S4096x512 .f32) (harg9 : arg9.IsWhole) (hc0 : cond0_0 i) (hc1 : ¬cond0_1 i)
    (x0 : Vec F S4096x512 .bf16) (x1 : Vec F S512x512 .i32) (x2 : Vec F S512x64 .f32) (x3 : Vec F S512x512 .i32) (x4 : Vec F S512x64 .f32) :
    Σ' (L5 : List (View.Piece (Elt F) S4096x512 .bf16)) (LS0 : List (View.Piece (Elt F) S4096x512 .f32)), { LS1 : List (View.Piece (Elt F) S4096x512 .f32) //
      ∀ (xi5 : Vec F S4096x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__gate_up_kernel i arg2 harg2 arg3 harg3 arg4 harg4 arg5 harg5 arg6 harg6 arg7 harg7 arg8 harg8 arg9 harg9) K } := by
  refine ⟨[], ?_, ?_, fun xi5 E K => ?run⟩
  case run =>
    simp only [cc0__gate_up_kernel_eq_skeleton]; unfold cc0__gate_up_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.Kernel.Hand

end
-- ==== Proof.K.Run0B.lean ====
import proofs.«405638_j50903952392412_1_alg».proof.Proof.K.Run0A

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1600000 in

noncomputable def kernelRun0_B (c : Dev nD) (i : grid0.Coords) (arg2 : Memref sig .tc .vmem S4096x512 .bf16) (harg2 : arg2.IsWhole) (arg3 : Memref sig .tc .vmem S512x512 .i32) (harg3 : arg3.IsWhole) (arg4 : Memref sig .tc .vmem S512x64 .f32) (harg4 : arg4.IsWhole) (arg5 : Memref sig .tc .vmem S512x512 .i32) (harg5 : arg5.IsWhole) (arg6 : Memref sig .tc .vmem S512x64 .f32) (harg6 : arg6.IsWhole) (arg7 : Memref sig .tc .vmem S4096x512 .bf16) (harg7 : arg7.IsWhole) (arg8 : Memref sig .tc .vmem S4096x512 .f32) (harg8 : arg8.IsWhole) (arg9 : Memref sig .tc .vmem S4096x512 .f32) (harg9 : arg9.IsWhole) (hc0 : ¬cond0_0 i) (hc1 : ¬cond0_1 i)
    (x0 : Vec F S4096x512 .bf16) (x1 : Vec F S512x512 .i32) (x2 : Vec F S512x64 .f32) (x3 : Vec F S512x512 .i32) (x4 : Vec F S512x64 .f32) (xs0 : Vec F S4096x512 .f32) (xs1 : Vec F S4096x512 .f32) :
    Σ' (L5 : List (View.Piece (Elt F) S4096x512 .bf16)) (LS0 : List (View.Piece (Elt F) S4096x512 .f32)), { LS1 : List (View.Piece (Elt F) S4096x512 .f32) //
      ∀ (xi5 : Vec F S4096x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__gate_up_kernel i arg2 harg2 arg3 harg3 arg4 harg4 arg5 harg5 arg6 harg6 arg7 harg7 arg8 harg8 arg9 harg9) K } := by
  refine ⟨[], ?_, ?_, fun xi5 E K => ?run⟩
  case run =>
    simp only [cc0__gate_up_kernel_eq_skeleton]; unfold cc0__gate_up_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.Kernel.Hand

end
-- ==== Proof.K.Run0C.lean ====
import proofs.«405638_j50903952392412_1_alg».proof.Proof.K.Run0B

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1600000 in

noncomputable def kernelRun0_C (c : Dev nD) (i : grid0.Coords) (arg2 : Memref sig .tc .vmem S4096x512 .bf16) (harg2 : arg2.IsWhole) (arg3 : Memref sig .tc .vmem S512x512 .i32) (harg3 : arg3.IsWhole) (arg4 : Memref sig .tc .vmem S512x64 .f32) (harg4 : arg4.IsWhole) (arg5 : Memref sig .tc .vmem S512x512 .i32) (harg5 : arg5.IsWhole) (arg6 : Memref sig .tc .vmem S512x64 .f32) (harg6 : arg6.IsWhole) (arg7 : Memref sig .tc .vmem S4096x512 .bf16) (harg7 : arg7.IsWhole) (arg8 : Memref sig .tc .vmem S4096x512 .f32) (harg8 : arg8.IsWhole) (arg9 : Memref sig .tc .vmem S4096x512 .f32) (harg9 : arg9.IsWhole) (hc0 : ¬cond0_0 i) (hc1 : cond0_1 i)
    (x0 : Vec F S4096x512 .bf16) (x1 : Vec F S512x512 .i32) (x2 : Vec F S512x64 .f32) (x3 : Vec F S512x512 .i32) (x4 : Vec F S512x64 .f32) (xs0 : Vec F S4096x512 .f32) (xs1 : Vec F S4096x512 .f32) :
    Σ' (L5 : List (View.Piece (Elt F) S4096x512 .bf16)) (LS0 : List (View.Piece (Elt F) S4096x512 .f32)), { LS1 : List (View.Piece (Elt F) S4096x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__gate_up_kernel i arg2 harg2 arg3 harg3 arg4 harg4 arg5 harg5 arg6 harg6 arg7 harg7 arg8 harg8 arg9 harg9) K } := by
  refine ⟨?_, ?_, ?_, fun E K => ?run⟩
  case run =>
    simp only [cc0__gate_up_kernel_eq_skeleton]; unfold cc0__gate_up_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    iexists _; iexact HS1

end Cert.Kernel.Hand

end
-- ==== Proof.K.Frame0.lean ====
import proofs.«405638_j50903952392412_1_alg».proof.Proof.K.Run0C

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (c : Dev nD) (t : Fin cfg0.N) (x0 : Vec F S4096x512 .bf16) (x1 : Vec F S512x512 .i32) (x2 : Vec F S512x64 .f32)
  (x3 : Vec F S512x512 .i32) (x4 : Vec F S512x64 .f32) (xs0 xs1 : Vec F S4096x512 .f32)

/-- The body at grid point `t` in each of its three cases: first, middle and last step of a row of 8. -/
abbrev runA (h0 : t.val % 8 = 0) (h1 : ¬t.val % 8 = 7) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) x0 x1 x2 x3 x4
abbrev runB (h0 : ¬t.val % 8 = 0) (h1 : ¬t.val % 8 = 7) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) x0 x1 x2 x3 x4 xs0 xs1
abbrev runC (h0 : ¬t.val % 8 = 0) (h1 : t.val % 8 = 7) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) x0 x1 x2 x3 x4 xs0 xs1

/-- The pieces a case stores into a buffer tile it. -/
theorem coverA (h0 h1) : (∀ y, ∃ p ∈ (runA c t x0 x1 x2 x3 x4 h0 h1).2.1, y ∈ p.1.set) ∧ ∀ y, ∃ p ∈ (runA c t x0 x1 x2 x3 x4 h0 h1).2.2.1, y ∈ p.1.set :=
  ⟨View.cover_of_tiledL _ S4096x512.size (by sl_kernel_rfl), View.cover_of_tiledL _ S4096x512.size (by sl_kernel_rfl)⟩
theorem coverB (h0 h1) : (∀ y, ∃ p ∈ (runB c t x0 x1 x2 x3 x4 xs0 xs1 h0 h1).2.1, y ∈ p.1.set) ∧ ∀ y, ∃ p ∈ (runB c t x0 x1 x2 x3 x4 xs0 xs1 h0 h1).2.2.1, y ∈ p.1.set :=
  ⟨View.cover_of_tiledL _ S4096x512.size (by sl_kernel_rfl), View.cover_of_tiledL _ S4096x512.size (by sl_kernel_rfl)⟩
theorem coverC (h0 h1) : (∀ y, ∃ p ∈ (runC c t x0 x1 x2 x3 x4 xs0 xs1 h0 h1).1, y ∈ p.1.set) ∧ (∀ y, ∃ p ∈ (runC c t x0 x1 x2 x3 x4 xs0 xs1 h0 h1).2.1, y ∈ p.1.set) ∧ ∀ y, ∃ p ∈ (runC c t x0 x1 x2 x3 x4 xs0 xs1 h0 h1).2.2.1, y ∈ p.1.set :=
  ⟨View.cover_of_tiledL _ S4096x512.size (by sl_kernel_rfl), View.cover_of_tiledL _ S4096x512.size (by sl_kernel_rfl), View.cover_of_tiledL _ S4096x512.size (by sl_kernel_rfl)⟩

end

variable (V : (c : Dev nD) → (b : Ref sig .tc) → Buf (Elt F) ((c : Thread nD τ).loc b))

/-- The part of operand `w`'s array that point `t` works on. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

section
variable (c : Dev nD) (t : Fin cfg0.N) (a : Vec F S4096x512 .f32 × Vec F S4096x512 .f32)

/-- What each case leaves in the output block and the accumulators, the accumulators entering at `a`. -/
abbrev RA (h0 h1) := runA c t (iblk0 V c 0 t) (iblk0 V c 1 t) (iblk0 V c 2 t) (iblk0 V c 3 t) (iblk0 V c 4 t) h0 h1
abbrev RB (h0 h1) := runB c t (iblk0 V c 0 t) (iblk0 V c 1 t) (iblk0 V c 2 t) (iblk0 V c 3 t) (iblk0 V c 4 t) a.1 a.2 h0 h1
abbrev RC (h0 h1) := runC c t (iblk0 V c 0 t) (iblk0 V c 1 t) (iblk0 V c 2 t) (iblk0 V c 3 t) (iblk0 V c 4 t) a.1 a.2 h0 h1
abbrev outA (h0 : t.val % 8 = 0) (h1 : ¬t.val % 8 = 7) : Vec F S4096x512 .bf16 × Vec F S4096x512 .f32 × Vec F S4096x512 .f32 :=
  (rd VO0_5 (RA V c t h0 h1).1, rd VS0_0 (RA V c t h0 h1).2.1, rd VS0_1 (RA V c t h0 h1).2.2.1)
abbrev outB (h0 : ¬t.val % 8 = 0) (h1 : ¬t.val % 8 = 7) : Vec F S4096x512 .bf16 × Vec F S4096x512 .f32 × Vec F S4096x512 .f32 :=
  (rd VO0_5 (RB V c t a h0 h1).1, rd VS0_0 (RB V c t a h0 h1).2.1, rd VS0_1 (RB V c t a h0 h1).2.2.1)
abbrev outC (h0 : ¬t.val % 8 = 0) (h1 : t.val % 8 = 7) : Vec F S4096x512 .bf16 × Vec F S4096x512 .f32 × Vec F S4096x512 .f32 :=
  (rd VO0_5 (RC V c t a h0 h1).1, rd VS0_0 (RC V c t a h0 h1).2.1, rd VS0_1 (RC V c t a h0 h1).2.2.1)

/-- One point's effect; a row's first step ignores `a`. -/
def stepAt0 : Vec F S4096x512 .bf16 × Vec F S4096x512 .f32 × Vec F S4096x512 .f32 :=
  if h0 : t.val % 8 = 0 then outA V c t h0 (by omega)
  else if h1 : t.val % 8 = 7 then outC V c t a h0 h1 else outB V c t a h0 h1

end

/-- The output block and the accumulators after the point at position `n`. -/
def outsAt0 (c : Dev nD) : (n : ℕ) → n < cfg0.N → Vec F S4096x512 .bf16 × Vec F S4096x512 .f32 × Vec F S4096x512 .f32
  | 0, hn => stepAt0 V c ⟨0, hn⟩ (rd VS0_0 [], rd VS0_1 [])
  | n + 1, hn => stepAt0 V c ⟨n + 1, hn⟩ (outsAt0 c n (Nat.lt_of_succ_lt hn)).2

/-- The accumulators entering point `t`. -/
abbrev prev0 (c : Dev nD) (t : Fin cfg0.N) : Vec F S4096x512 .f32 × Vec F S4096x512 .f32 :=
  (outsAt0 V c (t.val - 1) (Nat.lt_of_le_of_lt (Nat.sub_le _ _) t.isLt)).2

theorem outsAt0_A (c : Dev nD) (t : Fin cfg0.N) (h0 : t.val % 8 = 0) (h1 : ¬t.val % 8 = 7) :
    outsAt0 V c t.val t.isLt = outA V c t h0 h1 := by
  obtain ⟨n, hn⟩ := t
  cases n <;> (show stepAt0 V c _ _ = _; unfold stepAt0; rw [dif_pos h0])

theorem outsAt0_B (c : Dev nD) (t : Fin cfg0.N) (h0 : ¬t.val % 8 = 0) (h1 : ¬t.val % 8 = 7) :
    outsAt0 V c t.val t.isLt = outB V c t (prev0 V c t) h0 h1 := by
  obtain ⟨n, hn⟩ := t
  cases n with
  | zero => exact absurd (Nat.zero_mod _) h0
  | succ n => show stepAt0 V c _ _ = _; unfold stepAt0; rw [dif_neg h0, dif_neg h1]; rfl

theorem outsAt0_C (c : Dev nD) (t : Fin cfg0.N) (h0 : ¬t.val % 8 = 0) (h1 : t.val % 8 = 7) :
    outsAt0 V c t.val t.isLt = outC V c t (prev0 V c t) h0 h1 := by
  obtain ⟨n, hn⟩ := t
  cases n with
  | zero => exact absurd (Nat.zero_mod _) h0
  | succ n => show stepAt0 V c _ _ = _; unfold stepAt0; rw [dif_neg h0, dif_pos h1]; rfl

/-- Before point `n` the accumulators hold what `outsAt0` says; before the first point, anything. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ others0 c) ∗ (∃ r, prngReg c r))

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.1) ∗ owns (c : Thread nD τ) scM0_1 fullShare ((outsAt0 V c (n - 1) (by omega)).2.2) ∗ others0 c) ∗ (∃ r, prngReg c r)) := by
  cases n with
  | zero => exact absurd rfl hz
  | succ n => rfl

/-- The grid's proof data: inputs keep their blocks, the output block and the accumulators follow `outsAt0`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := rfl

theorem after0_5 (c : Dev nD) (t : Fin cfg0.N) : (dat0 V c).after 5 t = (outsAt0 V c t.val t.isLt).1 := rfl

/-- Forgetting the accumulators' contents. -/
theorem Phi0_any (c : Dev nD) (t : Fin (cfg0.N + 1)) :
    (dat0 V c).Φ t ⊢ iprop(iprop((∃ d, owns (c : Thread nD τ) scM0_0 fullShare d) ∗ (∃ d, owns (c : Thread nD τ) scM0_1 fullShare d) ∗ others0 c) ∗ (∃ r, prngReg c r)) := by
  obtain ⟨n, hn⟩ := t
  cases n with
  | zero => rw [← PhiA0_eq]; exact .rfl
  | succ n =>
    show iprop(iprop(owns (c : Thread nD τ) scM0_0 fullShare ((outsAt0 V c n _).2.1) ∗ owns (c : Thread nD τ) scM0_1 fullShare ((outsAt0 V c n _).2.2) ∗ others0 c) ∗ (∃ r, prngReg c r)) ⊢ _
    iintro ⟨⟨HS0, HS1, Hoth⟩, Hg⟩
    isplitl [HS0 HS1 Hoth]
    · isplitl [HS0]; · iexists _; iexact HS0
      isplitl [HS1]; · iexists _; iexact HS1
      iexact Hoth
    iexact Hg

/-- At every point the body finds each input's block. -/
theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl
theorem before0_4 (c : Dev nD) (t : Fin cfg0.N) (d) : (dat0 V c).before 4 t d = iblk0 V c 4 t :=
  ((dat0 V c).before_in_eq_fetched 4 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 4800000 in
/-- Each point's step: the body, run in its case, takes the invariant before `t` to the invariant after `t` and leaves the blocks as `dat0` says. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    show (dat0 V c).Φ t.succ = iprop(iprop(owns (c : Thread nD τ) scM0_0 fullShare ((outsAt0 V c t.val t.isLt).2.1) ∗ owns (c : Thread nD τ) scM0_1 fullShare ((outsAt0 V c t.val t.isLt).2.2) ∗ others0 c) ∗ (∃ r, prngReg c r)) from rfl,
    show (dat0 V c).leavesExact 0 t = owns (c : Thread nD τ) (ms0_0 t) fullShare (iblk0 V c 0 t) from by
      unfold Dat.leavesExact; rw [liveAt0 t 0 (by decide)]; rfl,
    show (dat0 V c).leavesExact 1 t = owns (c : Thread nD τ) (ms0_1 t) fullShare (iblk0 V c 1 t) from by
      unfold Dat.leavesExact; rw [liveAt0 t 1 (by decide)]; rfl,
    show (dat0 V c).leavesExact 2 t = owns (c : Thread nD τ) (ms0_2 t) fullShare (iblk0 V c 2 t) from by
      unfold Dat.leavesExact; rw [liveAt0 t 2 (by decide)]; rfl,
    show (dat0 V c).leavesExact 3 t = owns (c : Thread nD τ) (ms0_3 t) fullShare (iblk0 V c 3 t) from by
      unfold Dat.leavesExact; rw [liveAt0 t 3 (by decide)]; rfl,
    show (dat0 V c).leavesExact 4 t = owns (c : Thread nD τ) (ms0_4 t) fullShare (iblk0 V c 4 t) from by
      unfold Dat.leavesExact; rw [liveAt0 t 4 (by decide)]; rfl]
  by_cases h1 : t.val % 8 = 7
  · have h0 : ¬t.val % 8 = 0 := by omega
    have hz : t.val ≠ 0 := by omega
    have hc := coverC c t (iblk0 V c 0 t) (iblk0 V c 1 t) (iblk0 V c 2 t) (iblk0 V c 3 t) (iblk0 V c 4 t) (prev0 V c t).1 (prev0 V c t).2 h0 h1
    rw [show (dat0 V c).leavesExact 5 t = owns (c : Thread nD τ) (ms0_5 t) fullShare ((dat0 V c).after 5 t) from by
        unfold Dat.leavesExact; rw [liveAt0_5 t ((hcond0_1 t).mpr h1)], after0_5, outsAt0_C V c t h0 h1, show (dat0 V c).Φ t.castSucc = PhiS0 V c t.val (Nat.le_of_lt t.isLt) from rfl, PhiS0_pos V c _ _ hz]
    dsimp only [outC]
    iintro ⟨⟨⟨HS0, HS1, Hoth⟩, Hg⟩, Ho, ⟨%d0, H0⟩, ⟨%d1, H1⟩, ⟨%d2, H2⟩, ⟨%d3, H3⟩, ⟨%d4, H4⟩, ⟨%d5, H5⟩⟩
    iapply ((RC V c t (prev0 V c t) h0 h1).2.2.2 Set.univ _)
    iframe H0 H1 H2 H3 H4 HS0 HS1
    isplitl [H5]; · iexists _; iexact H5
    iintro ⟨H0, H1, H2, H3, H4, H5, HS0, HS1⟩
    iframe Hoth Hg
    isplitl [HS0 HS1]
    · isplitl [HS0]; · iapply owns_writes c _ VS0_0 _ hc.2.1; iexact HS0
      iapply owns_writes c _ VS0_1 _ hc.2.2; iexact HS1
    iframe Ho H0 H1 H2 H3 H4
    iapply owns_writes c _ VO0_5 _ hc.1; iexact H5
  · rw [Dat.leavesExact_idle (dat0 V c) 5 t (idleAt0_5 t fun h => h1 ((hcond0_1 t).mp h)) (noFlush0_5 t fun h => h1 ((hcond0_1 t).mp h))]
    by_cases h0 : t.val % 8 = 0
    · have hc := coverA c t (iblk0 V c 0 t) (iblk0 V c 1 t) (iblk0 V c 2 t) (iblk0 V c 3 t) (iblk0 V c 4 t) h0 h1
      rw [outsAt0_A V c t h0 h1]
      dsimp only [outA]
      refine (sep_mono (Phi0_any V c t.castSucc) .rfl).trans ?_
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩⟩
      iapply ((RA V c t h0 h1).2.2.2 _ Set.univ _)
      iframe H0 H1 H2 H3 H4 H5 HS0 HS1
      iintro ⟨H0, H1, H2, H3, H4, H5, HS0, HS1⟩
      iframe Hoth Hg
      isplitl [HS0 HS1]
      · isplitl [HS0]; · iapply owns_writes c _ VS0_0 _ hc.1; iexact HS0
        iapply owns_writes c _ VS0_1 _ hc.2; iexact HS1
      iframe Ho H0 H1 H2 H3 H4
      iexists _; iexact H5
    · have hz : t.val ≠ 0 := by omega
      have hc := coverB c t (iblk0 V c 0 t) (iblk0 V c 1 t) (iblk0 V c 2 t) (iblk0 V c 3 t) (iblk0 V c 4 t) (prev0 V c t).1 (prev0 V c t).2 h0 h1
      rw [outsAt0_B V c t h0 h1, show (dat0 V c).Φ t.castSucc = PhiS0 V c t.val (Nat.le_of_lt t.isLt) from rfl, PhiS0_pos V c _ _ hz]
      dsimp only [outB]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩⟩
      iapply ((RB V c t (prev0 V c t) h0 h1).2.2.2 _ Set.univ _)
      iframe H0 H1 H2 H3 H4 H5 HS0 HS1
      iintro ⟨H0, H1, H2, H3, H4, H5, HS0, HS1⟩
      iframe Hoth Hg
      isplitl [HS0 HS1]
      · isplitl [HS0]; · iapply owns_writes c _ VS0_0 _ hc.1; iexact HS0
        iapply owns_writes c _ VS0_1 _ hc.2; iexact HS1
      iframe Ho H0 H1 H2 H3 H4
      iexists _; iexact H5

theorem body_obligation0 (c : Dev nD) : BodyObligation (dat0 (F := F) V c) (defs₀ (F := F)) Variants.none () Set.univ := fun t => by
  rw [bigSep_W0, bigSep_W0]
  exact sound_body0 V c t

theorem Phi0_first (c : Dev nD) : (dat0 V c).Φ 0 = Pipeline.ΦA spec0 c := rfl

/-- After the last point only the existence of the accumulators' contents is kept. -/
theorem hout0 (c : Dev nD) : (dat0 V c).Φ (Fin.last cfg0.N) ⊢ Pipeline.ΦA spec0 c := by
  rw [PhiA0_eq]; exact Phi0_any V c _

end Cert.Kernel.Hand

end
-- ==== Proof.K.Run1A.lean ====
import proofs.«405638_j50903952392412_1_alg».proof.Proof.K.Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1600000 in

noncomputable def kernelRun1_A (c : Dev nD) (i : grid1.Coords) (arg2 : Memref sig .tc .vmem S4096x1024 .bf16) (harg2 : arg2.IsWhole) (arg3 : Memref sig .tc .vmem S512x1024 .i32) (harg3 : arg3.IsWhole) (arg4 : Memref sig .tc .vmem S512x224 .f32) (harg4 : arg4.IsWhole) (arg5 : Memref sig .tc .vmem S4096x512 .f32) (harg5 : arg5.IsWhole) (arg6 : Memref sig .tc .vmem S4096x512 .f32) (harg6 : arg6.IsWhole) (hc0 : cond1_0 i) (hc1 : ¬cond1_1 i)
    (x0 : Vec F S4096x1024 .bf16) (x1 : Vec F S512x1024 .i32) (x2 : Vec F S512x224 .f32) :
    Σ' (L3 : List (View.Piece (Elt F) S4096x512 .f32)), { LS0 : List (View.Piece (Elt F) S4096x512 .f32) //
      ∀ (xi3 : Vec F S4096x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__down_kernel i arg2 harg2 arg3 harg3 arg4 harg4 arg5 harg5 arg6 harg6) K } := by
  refine ⟨[], ?_, fun xi3 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.Run1B.lean ====
import proofs.«405638_j50903952392412_1_alg».proof.Proof.K.Run1A

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1600000 in

noncomputable def kernelRun1_B (c : Dev nD) (i : grid1.Coords) (arg2 : Memref sig .tc .vmem S4096x1024 .bf16) (harg2 : arg2.IsWhole) (arg3 : Memref sig .tc .vmem S512x1024 .i32) (harg3 : arg3.IsWhole) (arg4 : Memref sig .tc .vmem S512x224 .f32) (harg4 : arg4.IsWhole) (arg5 : Memref sig .tc .vmem S4096x512 .f32) (harg5 : arg5.IsWhole) (arg6 : Memref sig .tc .vmem S4096x512 .f32) (harg6 : arg6.IsWhole) (hc0 : ¬cond1_0 i) (hc1 : ¬cond1_1 i)
    (x0 : Vec F S4096x1024 .bf16) (x1 : Vec F S512x1024 .i32) (x2 : Vec F S512x224 .f32) (xs0 : Vec F S4096x512 .f32) :
    Σ' (L3 : List (View.Piece (Elt F) S4096x512 .f32)), { LS0 : List (View.Piece (Elt F) S4096x512 .f32) //
      ∀ (xi3 : Vec F S4096x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__down_kernel i arg2 harg2 arg3 harg3 arg4 harg4 arg5 harg5 arg6 harg6) K } := by
  refine ⟨[], ?_, fun xi3 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.Run1C.lean ====
import proofs.«405638_j50903952392412_1_alg».proof.Proof.K.Run1B

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1600000 in

noncomputable def kernelRun1_C (c : Dev nD) (i : grid1.Coords) (arg2 : Memref sig .tc .vmem S4096x1024 .bf16) (harg2 : arg2.IsWhole) (arg3 : Memref sig .tc .vmem S512x1024 .i32) (harg3 : arg3.IsWhole) (arg4 : Memref sig .tc .vmem S512x224 .f32) (harg4 : arg4.IsWhole) (arg5 : Memref sig .tc .vmem S4096x512 .f32) (harg5 : arg5.IsWhole) (arg6 : Memref sig .tc .vmem S4096x512 .f32) (harg6 : arg6.IsWhole) (hc0 : ¬cond1_0 i) (hc1 : cond1_1 i)
    (x0 : Vec F S4096x1024 .bf16) (x1 : Vec F S512x1024 .i32) (x2 : Vec F S512x224 .f32) (xs0 : Vec F S4096x512 .f32) :
    Σ' (L3 : List (View.Piece (Elt F) S4096x512 .f32)), { LS0 : List (View.Piece (Elt F) S4096x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__down_kernel i arg2 harg2 arg3 harg3 arg4 harg4 arg5 harg5 arg6 harg6) K } := by
  refine ⟨?_, ?_, fun E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.Frame1.lean ====
import proofs.«405638_j50903952392412_1_alg».proof.Proof.K.Run1C

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (c : Dev nD) (t : Fin cfg1.N) (x0 : Vec F S4096x1024 .bf16) (x1 : Vec F S512x1024 .i32) (x2 : Vec F S512x224 .f32)
  (xs0 : Vec F S4096x512 .f32)

/-- The body at grid point `t` in each of its three cases: first, middle and last step of a row of 14. -/
abbrev run1A (h0 : t.val % 14 = 0) (h1 : ¬t.val % 14 = 13) :=
  kernelRun1_A c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) x0 x1 x2
abbrev run1B (h0 : ¬t.val % 14 = 0) (h1 : ¬t.val % 14 = 13) :=
  kernelRun1_B c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) x0 x1 x2 xs0
abbrev run1C (h0 : ¬t.val % 14 = 0) (h1 : t.val % 14 = 13) :=
  kernelRun1_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) x0 x1 x2 xs0

/-- The pieces a case stores into a buffer tile it. -/
theorem cover1A (h0 h1) : ∀ y, ∃ p ∈ (run1A c t x0 x1 x2 h0 h1).2.1, y ∈ p.1.set :=
  View.cover_of_tiledL _ S4096x512.size (by sl_kernel_rfl)
theorem cover1B (h0 h1) : ∀ y, ∃ p ∈ (run1B c t x0 x1 x2 xs0 h0 h1).2.1, y ∈ p.1.set :=
  View.cover_of_tiledL _ S4096x512.size (by sl_kernel_rfl)
theorem cover1C (h0 h1) : (∀ y, ∃ p ∈ (run1C c t x0 x1 x2 xs0 h0 h1).1, y ∈ p.1.set) ∧ ∀ y, ∃ p ∈ (run1C c t x0 x1 x2 xs0 h0 h1).2.1, y ∈ p.1.set :=
  ⟨View.cover_of_tiledL _ S4096x512.size (by sl_kernel_rfl), View.cover_of_tiledL _ S4096x512.size (by sl_kernel_rfl)⟩

end

variable (V : (c : Dev nD) → (b : Ref sig .tc) → Buf (Elt F) ((c : Thread nD τ).loc b))

/-- The part of operand `w`'s array that point `t` works on. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

section
variable (c : Dev nD) (t : Fin cfg1.N) (a : Vec F S4096x512 .f32)

/-- What each case leaves in the output block and the accumulator, the accumulator entering at `a`. -/
abbrev R1A (h0 h1) := run1A c t (iblk1 V c 0 t) (iblk1 V c 1 t) (iblk1 V c 2 t) h0 h1
abbrev R1B (h0 h1) := run1B c t (iblk1 V c 0 t) (iblk1 V c 1 t) (iblk1 V c 2 t) a h0 h1
abbrev R1C (h0 h1) := run1C c t (iblk1 V c 0 t) (iblk1 V c 1 t) (iblk1 V c 2 t) a h0 h1
abbrev out1A (h0 : t.val % 14 = 0) (h1 : ¬t.val % 14 = 13) : Vec F S4096x512 .f32 × Vec F S4096x512 .f32 := (rd VO1_3 (R1A V c t h0 h1).1, rd VS1_0 (R1A V c t h0 h1).2.1)
abbrev out1B (h0 : ¬t.val % 14 = 0) (h1 : ¬t.val % 14 = 13) : Vec F S4096x512 .f32 × Vec F S4096x512 .f32 := (rd VO1_3 (R1B V c t a h0 h1).1, rd VS1_0 (R1B V c t a h0 h1).2.1)
abbrev out1C (h0 : ¬t.val % 14 = 0) (h1 : t.val % 14 = 13) : Vec F S4096x512 .f32 × Vec F S4096x512 .f32 := (rd VO1_3 (R1C V c t a h0 h1).1, rd VS1_0 (R1C V c t a h0 h1).2.1)

/-- One point's effect; a row's first step ignores `a`. -/
def stepAt1 : Vec F S4096x512 .f32 × Vec F S4096x512 .f32 :=
  if h0 : t.val % 14 = 0 then out1A V c t h0 (by omega)
  else if h1 : t.val % 14 = 13 then out1C V c t a h0 h1 else out1B V c t a h0 h1

end

/-- The output block and the accumulator after the point at position `n`. -/
def outsAt1 (c : Dev nD) : (n : ℕ) → n < cfg1.N → Vec F S4096x512 .f32 × Vec F S4096x512 .f32
  | 0, hn => stepAt1 V c ⟨0, hn⟩ (rd VS1_0 [])
  | n + 1, hn => stepAt1 V c ⟨n + 1, hn⟩ (outsAt1 c n (Nat.lt_of_succ_lt hn)).2

/-- The accumulator entering point `t`. -/
abbrev prev1 (c : Dev nD) (t : Fin cfg1.N) : Vec F S4096x512 .f32 :=
  (outsAt1 V c (t.val - 1) (Nat.lt_of_le_of_lt (Nat.sub_le _ _) t.isLt)).2

theorem outsAt1_A (c : Dev nD) (t : Fin cfg1.N) (h0 : t.val % 14 = 0) (h1 : ¬t.val % 14 = 13) :
    outsAt1 V c t.val t.isLt = out1A V c t h0 h1 := by
  obtain ⟨n, hn⟩ := t
  cases n <;> (show stepAt1 V c _ _ = _; unfold stepAt1; rw [dif_pos h0])

theorem outsAt1_B (c : Dev nD) (t : Fin cfg1.N) (h0 : ¬t.val % 14 = 0) (h1 : ¬t.val % 14 = 13) :
    outsAt1 V c t.val t.isLt = out1B V c t (prev1 V c t) h0 h1 := by
  obtain ⟨n, hn⟩ := t
  cases n with
  | zero => exact absurd (Nat.zero_mod _) h0
  | succ n => show stepAt1 V c _ _ = _; unfold stepAt1; rw [dif_neg h0, dif_neg h1]; rfl

theorem outsAt1_C (c : Dev nD) (t : Fin cfg1.N) (h0 : ¬t.val % 14 = 0) (h1 : t.val % 14 = 13) :
    outsAt1 V c t.val t.isLt = out1C V c t (prev1 V c t) h0 h1 := by
  obtain ⟨n, hn⟩ := t
  cases n with
  | zero => exact absurd (Nat.zero_mod _) h0
  | succ n => show stepAt1 V c _ _ = _; unfold stepAt1; rw [dif_neg h0, dif_pos h1]; rfl

/-- Before point `n` the accumulator holds what `outsAt1` says; before the first point, anything. -/
def PhiS1 (c : Dev nD) : (n : ℕ) → n ≤ cfg1.N → sProp 𝕄
  | 0, _ => Pipeline.ΦA spec1 c
  | n + 1, hn => iprop(iprop(others1 c ∗ owns (c : Thread nD τ) scM1_0 fullShare ((outsAt1 V c n hn).2)) ∗ (∃ r, prngReg c r))

theorem PhiS1_pos (c : Dev nD) (n : ℕ) (h : n ≤ cfg1.N) (hz : n ≠ 0) :
    PhiS1 V c n h = iprop(iprop(others1 c ∗ owns (c : Thread nD τ) scM1_0 fullShare ((outsAt1 V c (n - 1) (by omega)).2)) ∗ (∃ r, prngReg c r)) := by
  cases n with
  | zero => exact absurd rfl hz
  | succ n => rfl

/-- The grid's proof data: inputs keep their blocks, the output block and the accumulator follow `outsAt1`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := rfl

theorem after1_3 (c : Dev nD) (t : Fin cfg1.N) : (dat1 V c).after 3 t = (outsAt1 V c t.val t.isLt).1 := rfl

/-- Forgetting the accumulator's contents. -/
theorem Phi1_any (c : Dev nD) (t : Fin (cfg1.N + 1)) :
    (dat1 V c).Φ t ⊢ iprop(iprop(others1 c ∗ (∃ d, owns (c : Thread nD τ) scM1_0 fullShare d)) ∗ (∃ r, prngReg c r)) := by
  obtain ⟨n, hn⟩ := t
  cases n with
  | zero => exact PhiA1_in c
  | succ n =>
    show iprop(iprop(others1 c ∗ owns (c : Thread nD τ) scM1_0 fullShare ((outsAt1 V c n _).2)) ∗ (∃ r, prngReg c r)) ⊢ _
    iintro ⟨⟨Hoth, HS0⟩, Hg⟩
    isplitl [Hoth HS0]
    · isplitl [Hoth]; · iexact Hoth
      iexists _; iexact HS0
    iexact Hg

/-- At every point the body finds each input's block. -/
theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4800000 in
/-- Each point's step: the body, run in its case, takes the invariant before `t` to the invariant after `t` and leaves the blocks as `dat1` says. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    show (dat1 V c).Φ t.succ = iprop(iprop(others1 c ∗ owns (c : Thread nD τ) scM1_0 fullShare ((outsAt1 V c t.val t.isLt).2)) ∗ (∃ r, prngReg c r)) from rfl,
    show (dat1 V c).leavesExact 0 t = owns (c : Thread nD τ) (ms1_0 t) fullShare (iblk1 V c 0 t) from by
      unfold Dat.leavesExact; rw [liveAt1 t 0 (by decide)]; rfl,
    show (dat1 V c).leavesExact 1 t = owns (c : Thread nD τ) (ms1_1 t) fullShare (iblk1 V c 1 t) from by
      unfold Dat.leavesExact; rw [liveAt1 t 1 (by decide)]; rfl,
    show (dat1 V c).leavesExact 2 t = owns (c : Thread nD τ) (ms1_2 t) fullShare (iblk1 V c 2 t) from by
      unfold Dat.leavesExact; rw [liveAt1 t 2 (by decide)]; rfl]
  by_cases h1 : t.val % 14 = 13
  · have h0 : ¬t.val % 14 = 0 := by omega
    have hz : t.val ≠ 0 := by omega
    have hc := cover1C c t (iblk1 V c 0 t) (iblk1 V c 1 t) (iblk1 V c 2 t) (prev1 V c t) h0 h1
    rw [show (dat1 V c).leavesExact 3 t = owns (c : Thread nD τ) (ms1_3 t) fullShare ((dat1 V c).after 3 t) from by
        unfold Dat.leavesExact; rw [liveAt1_3 t ((hcond1_1 t).mpr h1)], after1_3, outsAt1_C V c t h0 h1, show (dat1 V c).Φ t.castSucc = PhiS1 V c t.val (Nat.le_of_lt t.isLt) from rfl, PhiS1_pos V c _ _ hz]
    dsimp only [out1C]
    iintro ⟨⟨⟨Hoth, HS0⟩, Hg⟩, Ho, ⟨%d0, H0⟩, ⟨%d1, H1⟩, ⟨%d2, H2⟩, ⟨%d3, H3⟩⟩
    iapply ((R1C V c t (prev1 V c t) h0 h1).2.2 Set.univ _)
    iframe H0 H1 H2 HS0
    isplitl [H3]; · iexists _; iexact H3
    iintro ⟨H0, H1, H2, H3, HS0⟩
    iframe Hoth Hg
    isplitl [HS0]; · iapply owns_writes c _ VS1_0 _ hc.2; iexact HS0
    iframe Ho H0 H1 H2
    iapply owns_writes c _ VO1_3 _ hc.1; iexact H3
  · rw [Dat.leavesExact_idle (dat1 V c) 3 t (idleAt1_3 t fun h => h1 ((hcond1_1 t).mp h)) (noFlush1_3 t fun h => h1 ((hcond1_1 t).mp h))]
    by_cases h0 : t.val % 14 = 0
    · have hc := cover1A c t (iblk1 V c 0 t) (iblk1 V c 1 t) (iblk1 V c 2 t) h0 h1
      rw [outsAt1_A V c t h0 h1]
      dsimp only [out1A]
      refine (sep_mono (Phi1_any V c t.castSucc) .rfl).trans ?_
      iintro ⟨⟨⟨Hoth, HS0⟩, Hg⟩, Ho, ⟨%d0, H0⟩, ⟨%d1, H1⟩, ⟨%d2, H2⟩, ⟨%d3, H3⟩⟩
      iapply ((R1A V c t h0 h1).2.2 _ Set.univ _)
      iframe H0 H1 H2 H3 HS0
      iintro ⟨H0, H1, H2, H3, HS0⟩
      iframe Hoth Hg
      isplitl [HS0]; · iapply owns_writes c _ VS1_0 _ hc; iexact HS0
      iframe Ho H0 H1 H2
      iexists _; iexact H3
    · have hz : t.val ≠ 0 := by omega
      have hc := cover1B c t (iblk1 V c 0 t) (iblk1 V c 1 t) (iblk1 V c 2 t) (prev1 V c t) h0 h1
      rw [outsAt1_B V c t h0 h1, show (dat1 V c).Φ t.castSucc = PhiS1 V c t.val (Nat.le_of_lt t.isLt) from rfl, PhiS1_pos V c _ _ hz]
      dsimp only [out1B]
      iintro ⟨⟨⟨Hoth, HS0⟩, Hg⟩, Ho, ⟨%d0, H0⟩, ⟨%d1, H1⟩, ⟨%d2, H2⟩, ⟨%d3, H3⟩⟩
      iapply ((R1B V c t (prev1 V c t) h0 h1).2.2 _ Set.univ _)
      iframe H0 H1 H2 H3 HS0
      iintro ⟨H0, H1, H2, H3, HS0⟩
      iframe Hoth Hg
      isplitl [HS0]; · iapply owns_writes c _ VS1_0 _ hc; iexact HS0
      iframe Ho H0 H1 H2
      iexists _; iexact H3

theorem body_obligation1 (c : Dev nD) : BodyObligation (dat1 (F := F) V c) (defs₀ (F := F)) Variants.none () Set.univ := fun t => by
  rw [bigSep_W1, bigSep_W1]
  exact sound_body1 V c t

theorem Phi1_first (c : Dev nD) : (dat1 V c).Φ 0 = Pipeline.ΦA spec1 c := rfl

/-- After the last point only the existence of the accumulator's contents is kept. -/
theorem hout1 (c : Dev nD) : (dat1 V c).Φ (Fin.last cfg1.N) ⊢ Pipeline.ΦA spec1 c :=
  (Phi1_any V c _).trans (PhiA1_out c)

end Cert.Kernel.Hand

end
-- ==== Proof.K.Whole.lean ====
import proofs.«405638_j50903952392412_1_alg».proof.Proof.K.Frame0
import proofs.«405638_j50903952392412_1_alg».proof.Proof.K.Frame1
import Idealize.ShloMosaic.Lib.Pipeline.Regions
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => m ((c : Dev nD), b)

abbrev W1 : Dev nD → Valuation τ sig (Elt F) := fun c => StableHlo.after hostOps0 (W0 m c)
abbrev V1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

abbrev W4 : Dev nD → Valuation τ sig (Elt F) := fun c => StableHlo.after hostOps2 (W3 m c)

theorem W2_keep (c : Dev nD) (b : Ref sig .tc) (hb : Pipeline.arrRef spec0 5 ≠ b) :
    W2 m c (Proc.devRef .tc b) = W1 m c (Proc.devRef .tc b) := by
  by_cases h : ∃ w, Pipeline.arrRef spec0 w = b
  · obtain ⟨w, rfl⟩ := h
    have hw : (cfg0.win w).isOut = false := by revert hb; revert w; decide
    exact (W2_arr m c w).trans (((dat0 (V1 m) c).arrAt_in w hw _).trans (A_eq0 (V1 m) c w))
  · exact W2_of_ne m c b fun w e => h ⟨w, e⟩

theorem W3_keep (c : Dev nD) (b : Ref sig .tc) (hb : Pipeline.arrRef spec1 3 ≠ b) :
    W3 m c (Proc.devRef .tc b) = W2 m c (Proc.devRef .tc b) := by
  by_cases h : ∃ w, Pipeline.arrRef spec1 w = b
  · obtain ⟨w, rfl⟩ := h
    have hw : (cfg1.win w).isOut = false := by revert hb; revert w; decide
    exact (W3_arr m c w).trans (((dat1 (V2 m) c).arrAt_in w hw _).trans (A_eq1 (V2 m) c w))
  · exact W3_of_ne m c b fun w e => h ⟨w, e⟩

/-- Arguments are never written: host lines write their own results, a kernel only its output. -/
theorem W4_arg (c : Dev nD) : ∀ b ∈ [main_arg0, main_arg1, main_arg2, main_arg3, main_arg4, main_arg5, main_arg6],
    W4 m c (Proc.devRef .tc b) = m ((c : Thread nD τ).loc b) := by
  intro b hb
  simp only [List.mem_cons, List.not_mem_nil, or_false] at hb
  rcases hb with rfl | rfl | rfl | rfl | rfl | rfl | rfl <;>
  refine (StableHlo.after_of_forall_not_mem _ _ (List.forall_iff_forall_mem.mp ?_)).trans <| (W3_keep m c _ (by decide)).trans <|
    (W2_keep m c _ (by decide)).trans <| StableHlo.after_of_forall_not_mem _ _ (List.forall_iff_forall_mem.mp ?_) <;>
  (simp only [hostOps0, hostOps2, List.Forall, StableHlo.nullary_writes, StableHlo.unary_writes, StableHlo.binary_writes, StableHlo.ternary_writes, StableHlo.quaternary_writes, StableHlo.reshape_writes, StableHlo.binaryIndexed_writes, Finset.mem_singleton]
   repeat' apply And.intro
   all_goals exact StableHlo.devRef_ne_of_ne (by decide))

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    icases HO with ⟨%W, HO⟩; iexists W; isplitr; · ipureintro; exact fun _ _ => Or.inl trivial
    iexact HO
  hin c := by
    rw [show (pdats m 0 c).Φ 0 = Pipeline.ΦA spec0 c from Phi0_first (V1 m) c]; unfold Pipeline.ΦA
    iintro ⟨Hp, -, Hr⟩
    iframe
  hout c := by
    rw [Pipeline.ownSems0_none]
    refine (show (pdats m 0 c).Φ (Fin.last _) ⊢ Pipeline.ΦA spec0 c from hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    icases HO with ⟨%W, HO⟩; iexists W; isplitr; · ipureintro; exact fun _ _ => Or.inl trivial
    iexact HO
  hin c := by
    rw [show (pdats m 1 c).Φ 0 = Pipeline.ΦA spec1 c from Phi1_first (V2 m) c]; unfold Pipeline.ΦA
    iintro ⟨Hp, -, Hr⟩
    iframe
  hout c := by
    rw [Pipeline.ownSems0_none]
    refine (show (pdats m 1 c).Φ (Fin.last _) ⊢ Pipeline.ΦA spec1 c from hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

theorem arg_kept (c : Dev nD) (mem : (ℓ : Loc nD τ sig) → Buf (Elt F) ℓ) (h : ∀ b ∈ Pipeline.ucRefs τ sig, mem (((c : Thread nD τ)).1, b) = W4 m c b)
    (b : Ref sig .tc) (hs : ¬(Proc.devRef .tc b : DevRef τ sig).isScoped) (hb : b ∈ [main_arg0, main_arg1, main_arg2, main_arg3, main_arg4, main_arg5, main_arg6]) :
    mem ((c.tc : Thread nD τ).loc b) = m ((c.tc : Thread nD τ).loc b) :=
  (h _ (mem_uc b hs)).trans (W4_arg m c b hb)

/-- The run ends with the result at `W4` and every argument unchanged. -/
theorem run_result : θ_run defs (onTc (τ := τ) (main (F := F))) ⟨m, fun _ => 0, ρ⟩ (fun r => ∀ c : Dev nD,
      r.2.mem ((c.tc : Thread nD τ).loc main_v7) = W4 m c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨h c _ (mem_uc main_v7 (by decide)),
    arg_kept m c r.2.mem (h c) main_arg0 (by decide) (by decide), arg_kept m c r.2.mem (h c) main_arg1 (by decide) (by decide),
    arg_kept m c r.2.mem (h c) main_arg2 (by decide) (by decide), arg_kept m c r.2.mem (h c) main_arg3 (by decide) (by decide),
    arg_kept m c r.2.mem (h c) main_arg4 (by decide) (by decide), arg_kept m c r.2.mem (h c) main_arg5 (by decide) (by decide),
    arg_kept m c r.2.mem (h c) main_arg6 (by decide) (by decide)⟩) (run_all m ρ)

/-- Every argument ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_result m ρ)

end Cert.Kernel.Hand

end
-- ==== Proof.KI.Shared.lean ====
import proofs.«405638_j50903952392412_1_alg».proof.Proof.Gen.KernelIdeal.Launch
import proofs.«405638_j50903952392412_1_alg».proof.Proof.Gen.KernelIdeal.Skeleton
import proofs.«405638_j50903952392412_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- A whole scoped buffer at some contents. -/
abbrev anyBuf (c : Dev nD) (b : Ref sig .tc) : sProp 𝕄 :=
  iprop(∃ f : Buf (Elt F) ((c : Thread nD τ).loc b), ((c : Thread nD τ).loc b) ↦{fullShare} f)

/-- A list of stored pieces read back through a view of the same shape. -/
abbrev rd {s : Shape} {e : EltTy} (W : View sig .tc .vmem s e) (L : List (View.Piece (Elt F) s e)) : Vec F s e :=
  W.read (Elt F) (W.writes (Elt F) W.junk L)

/-- A buffer rewritten by pieces that cover it holds those pieces read back, whatever it held. -/
theorem owns_writes {s : Shape} {e : EltTy} (c : Dev nD) (M : Memref sig .tc .vmem s e) (W : View sig .tc .vmem s e)
    (L : List (View.Piece (Elt F) s e)) (h : ∀ y, ∃ p ∈ L, y ∈ p.1.set) :
    (iprop(∃ f, M.view.loc (c : Thread nD τ) ↦[M.view.set]{fullShare} M.view.writes (Elt F) f L) : sProp 𝕄)
      ⊢ owns (c : Thread nD τ) M fullShare (rd W L) := by
  unfold owns
  iintro ⟨%f, H⟩
  iexists M.view.writes (Elt F) f L; isplitr
  · ipureintro; exact View.read_writes_of_cover _ _ _ _ _ h
  iexact H

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

theorem liveAt0 : ∀ (t : Fin cfg0.N) (w : Fin cfg0.W), w ≠ 5 → cfg0.idle w (grid0.coords t) = false := by decide +kernel

theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

abbrev ms0_0 (t : Fin cfg0.N) : Memref sig .tc .vmem S4096x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4096x512 .bf16 := win0_5.stage (cfg0.slots t 5)
abbrev hs0_5 (t : Fin cfg0.N) : (ms0_5 t).IsWhole := hstage0_5 ((cfg0.slots t 5).cast nbuf0_5)

abbrev scM0_0 : Memref sig .tc .vmem S4096x512 .f32 := Memref.whole cc0_scratch0
abbrev scM0_1 : Memref sig .tc .vmem S4096x512 .f32 := Memref.whole cc0_scratch1

abbrev VO0_5 : View sig .tc .vmem S4096x512 .bf16 := (Memref.whole cc0_stg5_0 : Memref sig .tc .vmem S4096x512 .bf16).view
abbrev VS0_0 : View sig .tc .vmem S4096x512 .f32 := scM0_0.view
abbrev VS0_1 : View sig .tc .vmem S4096x512 .f32 := scM0_1.view

def others0 (c : Dev nD) : sProp 𝕄 :=
  iprop(anyBuf c cc1_stg0_0 ∗ anyBuf c cc1_stg0_1 ∗ anyBuf c cc1_stg1_0 ∗ anyBuf c cc1_stg1_1 ∗ anyBuf c cc1_stg2_0 ∗ anyBuf c cc1_stg2_1 ∗ anyBuf c cc1_stg3_0 ∗ anyBuf c cc1_stg3_1 ∗ anyBuf c cc1_scratch0)

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ others0 c) ∗ (∃ r, prngReg c r)) := by
  unfold Pipeline.ΦA others0; rw [scopedRest0_eq]; simp only [scM0_0, scM0_1, owns_whole]; try rfl

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 14 = 0 :=
  (by decide +kernel : ∀ t : Fin grid1.N, cond1_0 (grid1.coords t) ↔ t.val % 14 = 0)
abbrev cond1_1 (i : grid1.Coords) : Prop := k1_cond2 i = 1#1
theorem hcond1_1 : ∀ t : Fin cfg1.N, cond1_1 (grid1.coords t) ↔ t.val % 14 = 13 :=
  (by decide +kernel : ∀ t : Fin grid1.N, cond1_1 (grid1.coords t) ↔ t.val % 14 = 13)

theorem liveAt1 : ∀ (t : Fin cfg1.N) (w : Fin cfg1.W), w ≠ 3 → cfg1.idle w (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

abbrev ms1_0 (t : Fin cfg1.N) : Memref sig .tc .vmem S4096x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x224 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4096x512 .f32 := win1_3.stage (cfg1.slots t 3)
abbrev hs1_3 (t : Fin cfg1.N) : (ms1_3 t).IsWhole := hstage1_3 ((cfg1.slots t 3).cast nbuf1_3)

abbrev scM1_0 : Memref sig .tc .vmem S4096x512 .f32 := Memref.whole cc1_scratch0
abbrev VO1_3 : View sig .tc .vmem S4096x512 .f32 := (Memref.whole cc1_stg3_0 : Memref sig .tc .vmem S4096x512 .f32).view
abbrev VS1_0 : View sig .tc .vmem S4096x512 .f32 := scM1_0.view

def others1 (c : Dev nD) : sProp 𝕄 :=
  iprop(anyBuf c cc0_stg0_0 ∗ anyBuf c cc0_stg0_1 ∗ anyBuf c cc0_stg1_0 ∗ anyBuf c cc0_stg1_1 ∗ anyBuf c cc0_stg2_0 ∗ anyBuf c cc0_stg2_1 ∗ anyBuf c cc0_stg3_0 ∗ anyBuf c cc0_stg3_1 ∗ anyBuf c cc0_stg4_0 ∗ anyBuf c cc0_stg4_1 ∗ anyBuf c cc0_stg5_0 ∗ anyBuf c cc0_stg5_1 ∗ anyBuf c cc0_scratch0 ∗ anyBuf c cc0_scratch1)

theorem PhiA1_in (c : Dev nD) :
    (Pipeline.ΦA spec1 c : sProp 𝕄)
      ⊢ iprop(iprop(others1 c ∗ (∃ d, owns (c : Thread nD τ) scM1_0 fullShare d)) ∗ (∃ r, prngReg c r)) := by
  unfold Pipeline.ΦA others1; rw [scopedRest1_eq]; simp only [scM1_0, owns_whole]
  iintro ⟨⟨H1, H2, H3, H4, H5, H6, H7, H8, H9, H10, H11, H12, H13, H14, HS⟩, Hg⟩
  iframe

theorem PhiA1_out (c : Dev nD) :
    iprop(iprop(others1 c ∗ (∃ d, owns (c : Thread nD τ) scM1_0 fullShare d)) ∗ (∃ r, prngReg c r))
      ⊢ (Pipeline.ΦA spec1 c : sProp 𝕄) := by
  unfold Pipeline.ΦA others1; rw [scopedRest1_eq]; simp only [scM1_0, owns_whole]
  iintro ⟨⟨⟨H1, H2, H3, H4, H5, H6, H7, H8, H9, H10, H11, H12, H13, H14⟩, HS⟩, Hg⟩
  iframe

end Cert.KernelIdeal.Hand

end
-- ==== Proof.KI.Run0A.lean ====
import proofs.«405638_j50903952392412_1_alg».proof.Proof.KI.Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1600000 in

noncomputable def kernelRun0_A (c : Dev nD) (i : grid0.Coords) (arg2 : Memref sig .tc .vmem S4096x512 .bf16) (harg2 : arg2.IsWhole) (arg3 : Memref sig .tc .vmem S512x512 .i32) (harg3 : arg3.IsWhole) (arg4 : Memref sig .tc .vmem S512x64 .f32) (harg4 : arg4.IsWhole) (arg5 : Memref sig .tc .vmem S512x512 .i32) (harg5 : arg5.IsWhole) (arg6 : Memref sig .tc .vmem S512x64 .f32) (harg6 : arg6.IsWhole) (arg7 : Memref sig .tc .vmem S4096x512 .bf16) (harg7 : arg7.IsWhole) (arg8 : Memref sig .tc .vmem S4096x512 .f32) (harg8 : arg8.IsWhole) (arg9 : Memref sig .tc .vmem S4096x512 .f32) (harg9 : arg9.IsWhole) (hc0 : cond0_0 i) (hc1 : ¬cond0_1 i)
    (x0 : Vec F S4096x512 .bf16) (x1 : Vec F S512x512 .i32) (x2 : Vec F S512x64 .f32) (x3 : Vec F S512x512 .i32) (x4 : Vec F S512x64 .f32) :
    Σ' (L5 : List (View.Piece (Elt F) S4096x512 .bf16)) (LS0 : List (View.Piece (Elt F) S4096x512 .f32)), { LS1 : List (View.Piece (Elt F) S4096x512 .f32) //
      ∀ (xi5 : Vec F S4096x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__gate_up_kernel i arg2 harg2 arg3 harg3 arg4 harg4 arg5 harg5 arg6 harg6 arg7 harg7 arg8 harg8 arg9 harg9) K } := by
  refine ⟨[], ?_, ?_, fun xi5 E K => ?run⟩
  case run =>
    simp only [cc0__gate_up_kernel_eq_skeleton]; unfold cc0__gate_up_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.KernelIdeal.Hand

end
-- ==== Proof.KI.Run0B.lean ====
import proofs.«405638_j50903952392412_1_alg».proof.Proof.KI.Run0A

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1600000 in

noncomputable def kernelRun0_B (c : Dev nD) (i : grid0.Coords) (arg2 : Memref sig .tc .vmem S4096x512 .bf16) (harg2 : arg2.IsWhole) (arg3 : Memref sig .tc .vmem S512x512 .i32) (harg3 : arg3.IsWhole) (arg4 : Memref sig .tc .vmem S512x64 .f32) (harg4 : arg4.IsWhole) (arg5 : Memref sig .tc .vmem S512x512 .i32) (harg5 : arg5.IsWhole) (arg6 : Memref sig .tc .vmem S512x64 .f32) (harg6 : arg6.IsWhole) (arg7 : Memref sig .tc .vmem S4096x512 .bf16) (harg7 : arg7.IsWhole) (arg8 : Memref sig .tc .vmem S4096x512 .f32) (harg8 : arg8.IsWhole) (arg9 : Memref sig .tc .vmem S4096x512 .f32) (harg9 : arg9.IsWhole) (hc0 : ¬cond0_0 i) (hc1 : ¬cond0_1 i)
    (x0 : Vec F S4096x512 .bf16) (x1 : Vec F S512x512 .i32) (x2 : Vec F S512x64 .f32) (x3 : Vec F S512x512 .i32) (x4 : Vec F S512x64 .f32) (xs0 : Vec F S4096x512 .f32) (xs1 : Vec F S4096x512 .f32) :
    Σ' (L5 : List (View.Piece (Elt F) S4096x512 .bf16)) (LS0 : List (View.Piece (Elt F) S4096x512 .f32)), { LS1 : List (View.Piece (Elt F) S4096x512 .f32) //
      ∀ (xi5 : Vec F S4096x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__gate_up_kernel i arg2 harg2 arg3 harg3 arg4 harg4 arg5 harg5 arg6 harg6 arg7 harg7 arg8 harg8 arg9 harg9) K } := by
  refine ⟨[], ?_, ?_, fun xi5 E K => ?run⟩
  case run =>
    simp only [cc0__gate_up_kernel_eq_skeleton]; unfold cc0__gate_up_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.KernelIdeal.Hand

end
-- ==== Proof.KI.Run0C.lean ====
import proofs.«405638_j50903952392412_1_alg».proof.Proof.KI.Run0B

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1600000 in

noncomputable def kernelRun0_C (c : Dev nD) (i : grid0.Coords) (arg2 : Memref sig .tc .vmem S4096x512 .bf16) (harg2 : arg2.IsWhole) (arg3 : Memref sig .tc .vmem S512x512 .i32) (harg3 : arg3.IsWhole) (arg4 : Memref sig .tc .vmem S512x64 .f32) (harg4 : arg4.IsWhole) (arg5 : Memref sig .tc .vmem S512x512 .i32) (harg5 : arg5.IsWhole) (arg6 : Memref sig .tc .vmem S512x64 .f32) (harg6 : arg6.IsWhole) (arg7 : Memref sig .tc .vmem S4096x512 .bf16) (harg7 : arg7.IsWhole) (arg8 : Memref sig .tc .vmem S4096x512 .f32) (harg8 : arg8.IsWhole) (arg9 : Memref sig .tc .vmem S4096x512 .f32) (harg9 : arg9.IsWhole) (hc0 : ¬cond0_0 i) (hc1 : cond0_1 i)
    (x0 : Vec F S4096x512 .bf16) (x1 : Vec F S512x512 .i32) (x2 : Vec F S512x64 .f32) (x3 : Vec F S512x512 .i32) (x4 : Vec F S512x64 .f32) (xs0 : Vec F S4096x512 .f32) (xs1 : Vec F S4096x512 .f32) :
    Σ' (L5 : List (View.Piece (Elt F) S4096x512 .bf16)) (LS0 : List (View.Piece (Elt F) S4096x512 .f32)), { LS1 : List (View.Piece (Elt F) S4096x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__gate_up_kernel i arg2 harg2 arg3 harg3 arg4 harg4 arg5 harg5 arg6 harg6 arg7 harg7 arg8 harg8 arg9 harg9) K } := by
  refine ⟨?_, ?_, ?_, fun E K => ?run⟩
  case run =>
    simp only [cc0__gate_up_kernel_eq_skeleton]; unfold cc0__gate_up_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    iexists _; iexact HS1

end Cert.KernelIdeal.Hand

end
-- ==== Proof.KI.Frame0.lean ====
import proofs.«405638_j50903952392412_1_alg».proof.Proof.KI.Run0C

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (c : Dev nD) (t : Fin cfg0.N) (x0 : Vec F S4096x512 .bf16) (x1 : Vec F S512x512 .i32) (x2 : Vec F S512x64 .f32)
  (x3 : Vec F S512x512 .i32) (x4 : Vec F S512x64 .f32) (xs0 xs1 : Vec F S4096x512 .f32)

/-- The body at grid point `t` in each of its three cases: first, middle and last step of a row of 8. -/
abbrev runA (h0 : t.val % 8 = 0) (h1 : ¬t.val % 8 = 7) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) x0 x1 x2 x3 x4
abbrev runB (h0 : ¬t.val % 8 = 0) (h1 : ¬t.val % 8 = 7) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) x0 x1 x2 x3 x4 xs0 xs1
abbrev runC (h0 : ¬t.val % 8 = 0) (h1 : t.val % 8 = 7) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) x0 x1 x2 x3 x4 xs0 xs1

/-- The pieces a case stores into a buffer tile it. -/
theorem coverA (h0 h1) : (∀ y, ∃ p ∈ (runA c t x0 x1 x2 x3 x4 h0 h1).2.1, y ∈ p.1.set) ∧ ∀ y, ∃ p ∈ (runA c t x0 x1 x2 x3 x4 h0 h1).2.2.1, y ∈ p.1.set :=
  ⟨View.cover_of_tiledL _ S4096x512.size (by sl_kernel_rfl), View.cover_of_tiledL _ S4096x512.size (by sl_kernel_rfl)⟩
theorem coverB (h0 h1) : (∀ y, ∃ p ∈ (runB c t x0 x1 x2 x3 x4 xs0 xs1 h0 h1).2.1, y ∈ p.1.set) ∧ ∀ y, ∃ p ∈ (runB c t x0 x1 x2 x3 x4 xs0 xs1 h0 h1).2.2.1, y ∈ p.1.set :=
  ⟨View.cover_of_tiledL _ S4096x512.size (by sl_kernel_rfl), View.cover_of_tiledL _ S4096x512.size (by sl_kernel_rfl)⟩
theorem coverC (h0 h1) : (∀ y, ∃ p ∈ (runC c t x0 x1 x2 x3 x4 xs0 xs1 h0 h1).1, y ∈ p.1.set) ∧ (∀ y, ∃ p ∈ (runC c t x0 x1 x2 x3 x4 xs0 xs1 h0 h1).2.1, y ∈ p.1.set) ∧ ∀ y, ∃ p ∈ (runC c t x0 x1 x2 x3 x4 xs0 xs1 h0 h1).2.2.1, y ∈ p.1.set :=
  ⟨View.cover_of_tiledL _ S4096x512.size (by sl_kernel_rfl), View.cover_of_tiledL _ S4096x512.size (by sl_kernel_rfl), View.cover_of_tiledL _ S4096x512.size (by sl_kernel_rfl)⟩

end

variable (V : (c : Dev nD) → (b : Ref sig .tc) → Buf (Elt F) ((c : Thread nD τ).loc b))

/-- The part of operand `w`'s array that point `t` works on. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

section
variable (c : Dev nD) (t : Fin cfg0.N) (a : Vec F S4096x512 .f32 × Vec F S4096x512 .f32)

/-- What each case leaves in the output block and the accumulators, the accumulators entering at `a`. -/
abbrev RA (h0 h1) := runA c t (iblk0 V c 0 t) (iblk0 V c 1 t) (iblk0 V c 2 t) (iblk0 V c 3 t) (iblk0 V c 4 t) h0 h1
abbrev RB (h0 h1) := runB c t (iblk0 V c 0 t) (iblk0 V c 1 t) (iblk0 V c 2 t) (iblk0 V c 3 t) (iblk0 V c 4 t) a.1 a.2 h0 h1
abbrev RC (h0 h1) := runC c t (iblk0 V c 0 t) (iblk0 V c 1 t) (iblk0 V c 2 t) (iblk0 V c 3 t) (iblk0 V c 4 t) a.1 a.2 h0 h1
abbrev outA (h0 : t.val % 8 = 0) (h1 : ¬t.val % 8 = 7) : Vec F S4096x512 .bf16 × Vec F S4096x512 .f32 × Vec F S4096x512 .f32 :=
  (rd VO0_5 (RA V c t h0 h1).1, rd VS0_0 (RA V c t h0 h1).2.1, rd VS0_1 (RA V c t h0 h1).2.2.1)
abbrev outB (h0 : ¬t.val % 8 = 0) (h1 : ¬t.val % 8 = 7) : Vec F S4096x512 .bf16 × Vec F S4096x512 .f32 × Vec F S4096x512 .f32 :=
  (rd VO0_5 (RB V c t a h0 h1).1, rd VS0_0 (RB V c t a h0 h1).2.1, rd VS0_1 (RB V c t a h0 h1).2.2.1)
abbrev outC (h0 : ¬t.val % 8 = 0) (h1 : t.val % 8 = 7) : Vec F S4096x512 .bf16 × Vec F S4096x512 .f32 × Vec F S4096x512 .f32 :=
  (rd VO0_5 (RC V c t a h0 h1).1, rd VS0_0 (RC V c t a h0 h1).2.1, rd VS0_1 (RC V c t a h0 h1).2.2.1)

/-- One point's effect; a row's first step ignores `a`. -/
def stepAt0 : Vec F S4096x512 .bf16 × Vec F S4096x512 .f32 × Vec F S4096x512 .f32 :=
  if h0 : t.val % 8 = 0 then outA V c t h0 (by omega)
  else if h1 : t.val % 8 = 7 then outC V c t a h0 h1 else outB V c t a h0 h1

end

/-- The output block and the accumulators after the point at position `n`. -/
def outsAt0 (c : Dev nD) : (n : ℕ) → n < cfg0.N → Vec F S4096x512 .bf16 × Vec F S4096x512 .f32 × Vec F S4096x512 .f32
  | 0, hn => stepAt0 V c ⟨0, hn⟩ (rd VS0_0 [], rd VS0_1 [])
  | n + 1, hn => stepAt0 V c ⟨n + 1, hn⟩ (outsAt0 c n (Nat.lt_of_succ_lt hn)).2

/-- The accumulators entering point `t`. -/
abbrev prev0 (c : Dev nD) (t : Fin cfg0.N) : Vec F S4096x512 .f32 × Vec F S4096x512 .f32 :=
  (outsAt0 V c (t.val - 1) (Nat.lt_of_le_of_lt (Nat.sub_le _ _) t.isLt)).2

theorem outsAt0_A (c : Dev nD) (t : Fin cfg0.N) (h0 : t.val % 8 = 0) (h1 : ¬t.val % 8 = 7) :
    outsAt0 V c t.val t.isLt = outA V c t h0 h1 := by
  obtain ⟨n, hn⟩ := t
  cases n <;> (show stepAt0 V c _ _ = _; unfold stepAt0; rw [dif_pos h0])

theorem outsAt0_B (c : Dev nD) (t : Fin cfg0.N) (h0 : ¬t.val % 8 = 0) (h1 : ¬t.val % 8 = 7) :
    outsAt0 V c t.val t.isLt = outB V c t (prev0 V c t) h0 h1 := by
  obtain ⟨n, hn⟩ := t
  cases n with
  | zero => exact absurd (Nat.zero_mod _) h0
  | succ n => show stepAt0 V c _ _ = _; unfold stepAt0; rw [dif_neg h0, dif_neg h1]; rfl

theorem outsAt0_C (c : Dev nD) (t : Fin cfg0.N) (h0 : ¬t.val % 8 = 0) (h1 : t.val % 8 = 7) :
    outsAt0 V c t.val t.isLt = outC V c t (prev0 V c t) h0 h1 := by
  obtain ⟨n, hn⟩ := t
  cases n with
  | zero => exact absurd (Nat.zero_mod _) h0
  | succ n => show stepAt0 V c _ _ = _; unfold stepAt0; rw [dif_neg h0, dif_pos h1]; rfl

/-- Before point `n` the accumulators hold what `outsAt0` says; before the first point, anything. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ others0 c) ∗ (∃ r, prngReg c r))

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.1) ∗ owns (c : Thread nD τ) scM0_1 fullShare ((outsAt0 V c (n - 1) (by omega)).2.2) ∗ others0 c) ∗ (∃ r, prngReg c r)) := by
  cases n with
  | zero => exact absurd rfl hz
  | succ n => rfl

/-- The grid's proof data: inputs keep their blocks, the output block and the accumulators follow `outsAt0`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := rfl

theorem after0_5 (c : Dev nD) (t : Fin cfg0.N) : (dat0 V c).after 5 t = (outsAt0 V c t.val t.isLt).1 := rfl

/-- Forgetting the accumulators' contents. -/
theorem Phi0_any (c : Dev nD) (t : Fin (cfg0.N + 1)) :
    (dat0 V c).Φ t ⊢ iprop(iprop((∃ d, owns (c : Thread nD τ) scM0_0 fullShare d) ∗ (∃ d, owns (c : Thread nD τ) scM0_1 fullShare d) ∗ others0 c) ∗ (∃ r, prngReg c r)) := by
  obtain ⟨n, hn⟩ := t
  cases n with
  | zero => rw [← PhiA0_eq]; exact .rfl
  | succ n =>
    show iprop(iprop(owns (c : Thread nD τ) scM0_0 fullShare ((outsAt0 V c n _).2.1) ∗ owns (c : Thread nD τ) scM0_1 fullShare ((outsAt0 V c n _).2.2) ∗ others0 c) ∗ (∃ r, prngReg c r)) ⊢ _
    iintro ⟨⟨HS0, HS1, Hoth⟩, Hg⟩
    isplitl [HS0 HS1 Hoth]
    · isplitl [HS0]; · iexists _; iexact HS0
      isplitl [HS1]; · iexists _; iexact HS1
      iexact Hoth
    iexact Hg

/-- At every point the body finds each input's block. -/
theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl
theorem before0_4 (c : Dev nD) (t : Fin cfg0.N) (d) : (dat0 V c).before 4 t d = iblk0 V c 4 t :=
  ((dat0 V c).before_in_eq_fetched 4 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 4800000 in
/-- Each point's step: the body, run in its case, takes the invariant before `t` to the invariant after `t` and leaves the blocks as `dat0` says. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    show (dat0 V c).Φ t.succ = iprop(iprop(owns (c : Thread nD τ) scM0_0 fullShare ((outsAt0 V c t.val t.isLt).2.1) ∗ owns (c : Thread nD τ) scM0_1 fullShare ((outsAt0 V c t.val t.isLt).2.2) ∗ others0 c) ∗ (∃ r, prngReg c r)) from rfl,
    show (dat0 V c).leavesExact 0 t = owns (c : Thread nD τ) (ms0_0 t) fullShare (iblk0 V c 0 t) from by
      unfold Dat.leavesExact; rw [liveAt0 t 0 (by decide)]; rfl,
    show (dat0 V c).leavesExact 1 t = owns (c : Thread nD τ) (ms0_1 t) fullShare (iblk0 V c 1 t) from by
      unfold Dat.leavesExact; rw [liveAt0 t 1 (by decide)]; rfl,
    show (dat0 V c).leavesExact 2 t = owns (c : Thread nD τ) (ms0_2 t) fullShare (iblk0 V c 2 t) from by
      unfold Dat.leavesExact; rw [liveAt0 t 2 (by decide)]; rfl,
    show (dat0 V c).leavesExact 3 t = owns (c : Thread nD τ) (ms0_3 t) fullShare (iblk0 V c 3 t) from by
      unfold Dat.leavesExact; rw [liveAt0 t 3 (by decide)]; rfl,
    show (dat0 V c).leavesExact 4 t = owns (c : Thread nD τ) (ms0_4 t) fullShare (iblk0 V c 4 t) from by
      unfold Dat.leavesExact; rw [liveAt0 t 4 (by decide)]; rfl]
  by_cases h1 : t.val % 8 = 7
  · have h0 : ¬t.val % 8 = 0 := by omega
    have hz : t.val ≠ 0 := by omega
    have hc := coverC c t (iblk0 V c 0 t) (iblk0 V c 1 t) (iblk0 V c 2 t) (iblk0 V c 3 t) (iblk0 V c 4 t) (prev0 V c t).1 (prev0 V c t).2 h0 h1
    rw [show (dat0 V c).leavesExact 5 t = owns (c : Thread nD τ) (ms0_5 t) fullShare ((dat0 V c).after 5 t) from by
        unfold Dat.leavesExact; rw [liveAt0_5 t ((hcond0_1 t).mpr h1)], after0_5, outsAt0_C V c t h0 h1, show (dat0 V c).Φ t.castSucc = PhiS0 V c t.val (Nat.le_of_lt t.isLt) from rfl, PhiS0_pos V c _ _ hz]
    dsimp only [outC]
    iintro ⟨⟨⟨HS0, HS1, Hoth⟩, Hg⟩, Ho, ⟨%d0, H0⟩, ⟨%d1, H1⟩, ⟨%d2, H2⟩, ⟨%d3, H3⟩, ⟨%d4, H4⟩, ⟨%d5, H5⟩⟩
    iapply ((RC V c t (prev0 V c t) h0 h1).2.2.2 Set.univ _)
    iframe H0 H1 H2 H3 H4 HS0 HS1
    isplitl [H5]; · iexists _; iexact H5
    iintro ⟨H0, H1, H2, H3, H4, H5, HS0, HS1⟩
    iframe Hoth Hg
    isplitl [HS0 HS1]
    · isplitl [HS0]; · iapply owns_writes c _ VS0_0 _ hc.2.1; iexact HS0
      iapply owns_writes c _ VS0_1 _ hc.2.2; iexact HS1
    iframe Ho H0 H1 H2 H3 H4
    iapply owns_writes c _ VO0_5 _ hc.1; iexact H5
  · rw [Dat.leavesExact_idle (dat0 V c) 5 t (idleAt0_5 t fun h => h1 ((hcond0_1 t).mp h)) (noFlush0_5 t fun h => h1 ((hcond0_1 t).mp h))]
    by_cases h0 : t.val % 8 = 0
    · have hc := coverA c t (iblk0 V c 0 t) (iblk0 V c 1 t) (iblk0 V c 2 t) (iblk0 V c 3 t) (iblk0 V c 4 t) h0 h1
      rw [outsAt0_A V c t h0 h1]
      dsimp only [outA]
      refine (sep_mono (Phi0_any V c t.castSucc) .rfl).trans ?_
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩⟩
      iapply ((RA V c t h0 h1).2.2.2 _ Set.univ _)
      iframe H0 H1 H2 H3 H4 H5 HS0 HS1
      iintro ⟨H0, H1, H2, H3, H4, H5, HS0, HS1⟩
      iframe Hoth Hg
      isplitl [HS0 HS1]
      · isplitl [HS0]; · iapply owns_writes c _ VS0_0 _ hc.1; iexact HS0
        iapply owns_writes c _ VS0_1 _ hc.2; iexact HS1
      iframe Ho H0 H1 H2 H3 H4
      iexists _; iexact H5
    · have hz : t.val ≠ 0 := by omega
      have hc := coverB c t (iblk0 V c 0 t) (iblk0 V c 1 t) (iblk0 V c 2 t) (iblk0 V c 3 t) (iblk0 V c 4 t) (prev0 V c t).1 (prev0 V c t).2 h0 h1
      rw [outsAt0_B V c t h0 h1, show (dat0 V c).Φ t.castSucc = PhiS0 V c t.val (Nat.le_of_lt t.isLt) from rfl, PhiS0_pos V c _ _ hz]
      dsimp only [outB]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩⟩
      iapply ((RB V c t (prev0 V c t) h0 h1).2.2.2 _ Set.univ _)
      iframe H0 H1 H2 H3 H4 H5 HS0 HS1
      iintro ⟨H0, H1, H2, H3, H4, H5, HS0, HS1⟩
      iframe Hoth Hg
      isplitl [HS0 HS1]
      · isplitl [HS0]; · iapply owns_writes c _ VS0_0 _ hc.1; iexact HS0
        iapply owns_writes c _ VS0_1 _ hc.2; iexact HS1
      iframe Ho H0 H1 H2 H3 H4
      iexists _; iexact H5

theorem body_obligation0 (c : Dev nD) : BodyObligation (dat0 (F := F) V c) (defs₀ (F := F)) Variants.none () Set.univ := fun t => by
  rw [bigSep_W0, bigSep_W0]
  exact sound_body0 V c t

theorem Phi0_first (c : Dev nD) : (dat0 V c).Φ 0 = Pipeline.ΦA spec0 c := rfl

/-- After the last point only the existence of the accumulators' contents is kept. -/
theorem hout0 (c : Dev nD) : (dat0 V c).Φ (Fin.last cfg0.N) ⊢ Pipeline.ΦA spec0 c := by
  rw [PhiA0_eq]; exact Phi0_any V c _

end Cert.KernelIdeal.Hand

end
-- ==== Proof.KI.Run1A.lean ====
import proofs.«405638_j50903952392412_1_alg».proof.Proof.KI.Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1600000 in

noncomputable def kernelRun1_A (c : Dev nD) (i : grid1.Coords) (arg2 : Memref sig .tc .vmem S4096x1024 .bf16) (harg2 : arg2.IsWhole) (arg3 : Memref sig .tc .vmem S512x1024 .i32) (harg3 : arg3.IsWhole) (arg4 : Memref sig .tc .vmem S512x224 .f32) (harg4 : arg4.IsWhole) (arg5 : Memref sig .tc .vmem S4096x512 .f32) (harg5 : arg5.IsWhole) (arg6 : Memref sig .tc .vmem S4096x512 .f32) (harg6 : arg6.IsWhole) (hc0 : cond1_0 i) (hc1 : ¬cond1_1 i)
    (x0 : Vec F S4096x1024 .bf16) (x1 : Vec F S512x1024 .i32) (x2 : Vec F S512x224 .f32) :
    Σ' (L3 : List (View.Piece (Elt F) S4096x512 .f32)), { LS0 : List (View.Piece (Elt F) S4096x512 .f32) //
      ∀ (xi3 : Vec F S4096x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__down_kernel i arg2 harg2 arg3 harg3 arg4 harg4 arg5 harg5 arg6 harg6) K } := by
  refine ⟨[], ?_, fun xi3 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.Run1B.lean ====
import proofs.«405638_j50903952392412_1_alg».proof.Proof.KI.Run1A

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1600000 in

noncomputable def kernelRun1_B (c : Dev nD) (i : grid1.Coords) (arg2 : Memref sig .tc .vmem S4096x1024 .bf16) (harg2 : arg2.IsWhole) (arg3 : Memref sig .tc .vmem S512x1024 .i32) (harg3 : arg3.IsWhole) (arg4 : Memref sig .tc .vmem S512x224 .f32) (harg4 : arg4.IsWhole) (arg5 : Memref sig .tc .vmem S4096x512 .f32) (harg5 : arg5.IsWhole) (arg6 : Memref sig .tc .vmem S4096x512 .f32) (harg6 : arg6.IsWhole) (hc0 : ¬cond1_0 i) (hc1 : ¬cond1_1 i)
    (x0 : Vec F S4096x1024 .bf16) (x1 : Vec F S512x1024 .i32) (x2 : Vec F S512x224 .f32) (xs0 : Vec F S4096x512 .f32) :
    Σ' (L3 : List (View.Piece (Elt F) S4096x512 .f32)), { LS0 : List (View.Piece (Elt F) S4096x512 .f32) //
      ∀ (xi3 : Vec F S4096x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__down_kernel i arg2 harg2 arg3 harg3 arg4 harg4 arg5 harg5 arg6 harg6) K } := by
  refine ⟨[], ?_, fun xi3 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.Run1C.lean ====
import proofs.«405638_j50903952392412_1_alg».proof.Proof.KI.Run1B

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1600000 in

noncomputable def kernelRun1_C (c : Dev nD) (i : grid1.Coords) (arg2 : Memref sig .tc .vmem S4096x1024 .bf16) (harg2 : arg2.IsWhole) (arg3 : Memref sig .tc .vmem S512x1024 .i32) (harg3 : arg3.IsWhole) (arg4 : Memref sig .tc .vmem S512x224 .f32) (harg4 : arg4.IsWhole) (arg5 : Memref sig .tc .vmem S4096x512 .f32) (harg5 : arg5.IsWhole) (arg6 : Memref sig .tc .vmem S4096x512 .f32) (harg6 : arg6.IsWhole) (hc0 : ¬cond1_0 i) (hc1 : cond1_1 i)
    (x0 : Vec F S4096x1024 .bf16) (x1 : Vec F S512x1024 .i32) (x2 : Vec F S512x224 .f32) (xs0 : Vec F S4096x512 .f32) :
    Σ' (L3 : List (View.Piece (Elt F) S4096x512 .f32)), { LS0 : List (View.Piece (Elt F) S4096x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__down_kernel i arg2 harg2 arg3 harg3 arg4 harg4 arg5 harg5 arg6 harg6) K } := by
  refine ⟨?_, ?_, fun E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.Frame1.lean ====
import proofs.«405638_j50903952392412_1_alg».proof.Proof.KI.Run1C

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (c : Dev nD) (t : Fin cfg1.N) (x0 : Vec F S4096x1024 .bf16) (x1 : Vec F S512x1024 .i32) (x2 : Vec F S512x224 .f32)
  (xs0 : Vec F S4096x512 .f32)

/-- The body at grid point `t` in each of its three cases: first, middle and last step of a row of 14. -/
abbrev run1A (h0 : t.val % 14 = 0) (h1 : ¬t.val % 14 = 13) :=
  kernelRun1_A c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) x0 x1 x2
abbrev run1B (h0 : ¬t.val % 14 = 0) (h1 : ¬t.val % 14 = 13) :=
  kernelRun1_B c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) x0 x1 x2 xs0
abbrev run1C (h0 : ¬t.val % 14 = 0) (h1 : t.val % 14 = 13) :=
  kernelRun1_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) x0 x1 x2 xs0

/-- The pieces a case stores into a buffer tile it. -/
theorem cover1A (h0 h1) : ∀ y, ∃ p ∈ (run1A c t x0 x1 x2 h0 h1).2.1, y ∈ p.1.set :=
  View.cover_of_tiledL _ S4096x512.size (by sl_kernel_rfl)
theorem cover1B (h0 h1) : ∀ y, ∃ p ∈ (run1B c t x0 x1 x2 xs0 h0 h1).2.1, y ∈ p.1.set :=
  View.cover_of_tiledL _ S4096x512.size (by sl_kernel_rfl)
theorem cover1C (h0 h1) : (∀ y, ∃ p ∈ (run1C c t x0 x1 x2 xs0 h0 h1).1, y ∈ p.1.set) ∧ ∀ y, ∃ p ∈ (run1C c t x0 x1 x2 xs0 h0 h1).2.1, y ∈ p.1.set :=
  ⟨View.cover_of_tiledL _ S4096x512.size (by sl_kernel_rfl), View.cover_of_tiledL _ S4096x512.size (by sl_kernel_rfl)⟩

end

variable (V : (c : Dev nD) → (b : Ref sig .tc) → Buf (Elt F) ((c : Thread nD τ).loc b))

/-- The part of operand `w`'s array that point `t` works on. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

section
variable (c : Dev nD) (t : Fin cfg1.N) (a : Vec F S4096x512 .f32)

/-- What each case leaves in the output block and the accumulator, the accumulator entering at `a`. -/
abbrev R1A (h0 h1) := run1A c t (iblk1 V c 0 t) (iblk1 V c 1 t) (iblk1 V c 2 t) h0 h1
abbrev R1B (h0 h1) := run1B c t (iblk1 V c 0 t) (iblk1 V c 1 t) (iblk1 V c 2 t) a h0 h1
abbrev R1C (h0 h1) := run1C c t (iblk1 V c 0 t) (iblk1 V c 1 t) (iblk1 V c 2 t) a h0 h1
abbrev out1A (h0 : t.val % 14 = 0) (h1 : ¬t.val % 14 = 13) : Vec F S4096x512 .f32 × Vec F S4096x512 .f32 := (rd VO1_3 (R1A V c t h0 h1).1, rd VS1_0 (R1A V c t h0 h1).2.1)
abbrev out1B (h0 : ¬t.val % 14 = 0) (h1 : ¬t.val % 14 = 13) : Vec F S4096x512 .f32 × Vec F S4096x512 .f32 := (rd VO1_3 (R1B V c t a h0 h1).1, rd VS1_0 (R1B V c t a h0 h1).2.1)
abbrev out1C (h0 : ¬t.val % 14 = 0) (h1 : t.val % 14 = 13) : Vec F S4096x512 .f32 × Vec F S4096x512 .f32 := (rd VO1_3 (R1C V c t a h0 h1).1, rd VS1_0 (R1C V c t a h0 h1).2.1)

/-- One point's effect; a row's first step ignores `a`. -/
def stepAt1 : Vec F S4096x512 .f32 × Vec F S4096x512 .f32 :=
  if h0 : t.val % 14 = 0 then out1A V c t h0 (by omega)
  else if h1 : t.val % 14 = 13 then out1C V c t a h0 h1 else out1B V c t a h0 h1

end

/-- The output block and the accumulator after the point at position `n`. -/
def outsAt1 (c : Dev nD) : (n : ℕ) → n < cfg1.N → Vec F S4096x512 .f32 × Vec F S4096x512 .f32
  | 0, hn => stepAt1 V c ⟨0, hn⟩ (rd VS1_0 [])
  | n + 1, hn => stepAt1 V c ⟨n + 1, hn⟩ (outsAt1 c n (Nat.lt_of_succ_lt hn)).2

/-- The accumulator entering point `t`. -/
abbrev prev1 (c : Dev nD) (t : Fin cfg1.N) : Vec F S4096x512 .f32 :=
  (outsAt1 V c (t.val - 1) (Nat.lt_of_le_of_lt (Nat.sub_le _ _) t.isLt)).2

theorem outsAt1_A (c : Dev nD) (t : Fin cfg1.N) (h0 : t.val % 14 = 0) (h1 : ¬t.val % 14 = 13) :
    outsAt1 V c t.val t.isLt = out1A V c t h0 h1 := by
  obtain ⟨n, hn⟩ := t
  cases n <;> (show stepAt1 V c _ _ = _; unfold stepAt1; rw [dif_pos h0])

theorem outsAt1_B (c : Dev nD) (t : Fin cfg1.N) (h0 : ¬t.val % 14 = 0) (h1 : ¬t.val % 14 = 13) :
    outsAt1 V c t.val t.isLt = out1B V c t (prev1 V c t) h0 h1 := by
  obtain ⟨n, hn⟩ := t
  cases n with
  | zero => exact absurd (Nat.zero_mod _) h0
  | succ n => show stepAt1 V c _ _ = _; unfold stepAt1; rw [dif_neg h0, dif_neg h1]; rfl

theorem outsAt1_C (c : Dev nD) (t : Fin cfg1.N) (h0 : ¬t.val % 14 = 0) (h1 : t.val % 14 = 13) :
    outsAt1 V c t.val t.isLt = out1C V c t (prev1 V c t) h0 h1 := by
  obtain ⟨n, hn⟩ := t
  cases n with
  | zero => exact absurd (Nat.zero_mod _) h0
  | succ n => show stepAt1 V c _ _ = _; unfold stepAt1; rw [dif_neg h0, dif_pos h1]; rfl

/-- Before point `n` the accumulator holds what `outsAt1` says; before the first point, anything. -/
def PhiS1 (c : Dev nD) : (n : ℕ) → n ≤ cfg1.N → sProp 𝕄
  | 0, _ => Pipeline.ΦA spec1 c
  | n + 1, hn => iprop(iprop(others1 c ∗ owns (c : Thread nD τ) scM1_0 fullShare ((outsAt1 V c n hn).2)) ∗ (∃ r, prngReg c r))

theorem PhiS1_pos (c : Dev nD) (n : ℕ) (h : n ≤ cfg1.N) (hz : n ≠ 0) :
    PhiS1 V c n h = iprop(iprop(others1 c ∗ owns (c : Thread nD τ) scM1_0 fullShare ((outsAt1 V c (n - 1) (by omega)).2)) ∗ (∃ r, prngReg c r)) := by
  cases n with
  | zero => exact absurd rfl hz
  | succ n => rfl

/-- The grid's proof data: inputs keep their blocks, the output block and the accumulator follow `outsAt1`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := rfl

theorem after1_3 (c : Dev nD) (t : Fin cfg1.N) : (dat1 V c).after 3 t = (outsAt1 V c t.val t.isLt).1 := rfl

/-- Forgetting the accumulator's contents. -/
theorem Phi1_any (c : Dev nD) (t : Fin (cfg1.N + 1)) :
    (dat1 V c).Φ t ⊢ iprop(iprop(others1 c ∗ (∃ d, owns (c : Thread nD τ) scM1_0 fullShare d)) ∗ (∃ r, prngReg c r)) := by
  obtain ⟨n, hn⟩ := t
  cases n with
  | zero => exact PhiA1_in c
  | succ n =>
    show iprop(iprop(others1 c ∗ owns (c : Thread nD τ) scM1_0 fullShare ((outsAt1 V c n _).2)) ∗ (∃ r, prngReg c r)) ⊢ _
    iintro ⟨⟨Hoth, HS0⟩, Hg⟩
    isplitl [Hoth HS0]
    · isplitl [Hoth]; · iexact Hoth
      iexists _; iexact HS0
    iexact Hg

/-- At every point the body finds each input's block. -/
theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4800000 in
/-- Each point's step: the body, run in its case, takes the invariant before `t` to the invariant after `t` and leaves the blocks as `dat1` says. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    show (dat1 V c).Φ t.succ = iprop(iprop(others1 c ∗ owns (c : Thread nD τ) scM1_0 fullShare ((outsAt1 V c t.val t.isLt).2)) ∗ (∃ r, prngReg c r)) from rfl,
    show (dat1 V c).leavesExact 0 t = owns (c : Thread nD τ) (ms1_0 t) fullShare (iblk1 V c 0 t) from by
      unfold Dat.leavesExact; rw [liveAt1 t 0 (by decide)]; rfl,
    show (dat1 V c).leavesExact 1 t = owns (c : Thread nD τ) (ms1_1 t) fullShare (iblk1 V c 1 t) from by
      unfold Dat.leavesExact; rw [liveAt1 t 1 (by decide)]; rfl,
    show (dat1 V c).leavesExact 2 t = owns (c : Thread nD τ) (ms1_2 t) fullShare (iblk1 V c 2 t) from by
      unfold Dat.leavesExact; rw [liveAt1 t 2 (by decide)]; rfl]
  by_cases h1 : t.val % 14 = 13
  · have h0 : ¬t.val % 14 = 0 := by omega
    have hz : t.val ≠ 0 := by omega
    have hc := cover1C c t (iblk1 V c 0 t) (iblk1 V c 1 t) (iblk1 V c 2 t) (prev1 V c t) h0 h1
    rw [show (dat1 V c).leavesExact 3 t = owns (c : Thread nD τ) (ms1_3 t) fullShare ((dat1 V c).after 3 t) from by
        unfold Dat.leavesExact; rw [liveAt1_3 t ((hcond1_1 t).mpr h1)], after1_3, outsAt1_C V c t h0 h1, show (dat1 V c).Φ t.castSucc = PhiS1 V c t.val (Nat.le_of_lt t.isLt) from rfl, PhiS1_pos V c _ _ hz]
    dsimp only [out1C]
    iintro ⟨⟨⟨Hoth, HS0⟩, Hg⟩, Ho, ⟨%d0, H0⟩, ⟨%d1, H1⟩, ⟨%d2, H2⟩, ⟨%d3, H3⟩⟩
    iapply ((R1C V c t (prev1 V c t) h0 h1).2.2 Set.univ _)
    iframe H0 H1 H2 HS0
    isplitl [H3]; · iexists _; iexact H3
    iintro ⟨H0, H1, H2, H3, HS0⟩
    iframe Hoth Hg
    isplitl [HS0]; · iapply owns_writes c _ VS1_0 _ hc.2; iexact HS0
    iframe Ho H0 H1 H2
    iapply owns_writes c _ VO1_3 _ hc.1; iexact H3
  · rw [Dat.leavesExact_idle (dat1 V c) 3 t (idleAt1_3 t fun h => h1 ((hcond1_1 t).mp h)) (noFlush1_3 t fun h => h1 ((hcond1_1 t).mp h))]
    by_cases h0 : t.val % 14 = 0
    · have hc := cover1A c t (iblk1 V c 0 t) (iblk1 V c 1 t) (iblk1 V c 2 t) h0 h1
      rw [outsAt1_A V c t h0 h1]
      dsimp only [out1A]
      refine (sep_mono (Phi1_any V c t.castSucc) .rfl).trans ?_
      iintro ⟨⟨⟨Hoth, HS0⟩, Hg⟩, Ho, ⟨%d0, H0⟩, ⟨%d1, H1⟩, ⟨%d2, H2⟩, ⟨%d3, H3⟩⟩
      iapply ((R1A V c t h0 h1).2.2 _ Set.univ _)
      iframe H0 H1 H2 H3 HS0
      iintro ⟨H0, H1, H2, H3, HS0⟩
      iframe Hoth Hg
      isplitl [HS0]; · iapply owns_writes c _ VS1_0 _ hc; iexact HS0
      iframe Ho H0 H1 H2
      iexists _; iexact H3
    · have hz : t.val ≠ 0 := by omega
      have hc := cover1B c t (iblk1 V c 0 t) (iblk1 V c 1 t) (iblk1 V c 2 t) (prev1 V c t) h0 h1
      rw [outsAt1_B V c t h0 h1, show (dat1 V c).Φ t.castSucc = PhiS1 V c t.val (Nat.le_of_lt t.isLt) from rfl, PhiS1_pos V c _ _ hz]
      dsimp only [out1B]
      iintro ⟨⟨⟨Hoth, HS0⟩, Hg⟩, Ho, ⟨%d0, H0⟩, ⟨%d1, H1⟩, ⟨%d2, H2⟩, ⟨%d3, H3⟩⟩
      iapply ((R1B V c t (prev1 V c t) h0 h1).2.2 _ Set.univ _)
      iframe H0 H1 H2 H3 HS0
      iintro ⟨H0, H1, H2, H3, HS0⟩
      iframe Hoth Hg
      isplitl [HS0]; · iapply owns_writes c _ VS1_0 _ hc; iexact HS0
      iframe Ho H0 H1 H2
      iexists _; iexact H3

theorem body_obligation1 (c : Dev nD) : BodyObligation (dat1 (F := F) V c) (defs₀ (F := F)) Variants.none () Set.univ := fun t => by
  rw [bigSep_W1, bigSep_W1]
  exact sound_body1 V c t

theorem Phi1_first (c : Dev nD) : (dat1 V c).Φ 0 = Pipeline.ΦA spec1 c := rfl

/-- After the last point only the existence of the accumulator's contents is kept. -/
theorem hout1 (c : Dev nD) : (dat1 V c).Φ (Fin.last cfg1.N) ⊢ Pipeline.ΦA spec1 c :=
  (Phi1_any V c _).trans (PhiA1_out c)

end Cert.KernelIdeal.Hand

end
-- ==== Proof.KI.Whole.lean ====
import proofs.«405638_j50903952392412_1_alg».proof.Proof.KI.Frame0
import proofs.«405638_j50903952392412_1_alg».proof.Proof.KI.Frame1
import Idealize.ShloMosaic.Lib.Pipeline.Regions
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => m ((c : Dev nD), b)

abbrev W1 : Dev nD → Valuation τ sig (Elt F) := fun c => StableHlo.after hostOps0 (W0 m c)
abbrev V1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

abbrev W4 : Dev nD → Valuation τ sig (Elt F) := fun c => StableHlo.after hostOps2 (W3 m c)

theorem W2_keep (c : Dev nD) (b : Ref sig .tc) (hb : Pipeline.arrRef spec0 5 ≠ b) :
    W2 m c (Proc.devRef .tc b) = W1 m c (Proc.devRef .tc b) := by
  by_cases h : ∃ w, Pipeline.arrRef spec0 w = b
  · obtain ⟨w, rfl⟩ := h
    have hw : (cfg0.win w).isOut = false := by revert hb; revert w; decide
    exact (W2_arr m c w).trans (((dat0 (V1 m) c).arrAt_in w hw _).trans (A_eq0 (V1 m) c w))
  · exact W2_of_ne m c b fun w e => h ⟨w, e⟩

theorem W3_keep (c : Dev nD) (b : Ref sig .tc) (hb : Pipeline.arrRef spec1 3 ≠ b) :
    W3 m c (Proc.devRef .tc b) = W2 m c (Proc.devRef .tc b) := by
  by_cases h : ∃ w, Pipeline.arrRef spec1 w = b
  · obtain ⟨w, rfl⟩ := h
    have hw : (cfg1.win w).isOut = false := by revert hb; revert w; decide
    exact (W3_arr m c w).trans (((dat1 (V2 m) c).arrAt_in w hw _).trans (A_eq1 (V2 m) c w))
  · exact W3_of_ne m c b fun w e => h ⟨w, e⟩

/-- Arguments are never written: host lines write their own results, a kernel only its output. -/
theorem W4_arg (c : Dev nD) : ∀ b ∈ [main_arg0, main_arg1, main_arg2, main_arg3, main_arg4, main_arg5, main_arg6],
    W4 m c (Proc.devRef .tc b) = m ((c : Thread nD τ).loc b) := by
  intro b hb
  simp only [List.mem_cons, List.not_mem_nil, or_false] at hb
  rcases hb with rfl | rfl | rfl | rfl | rfl | rfl | rfl <;>
  refine (StableHlo.after_of_forall_not_mem _ _ (List.forall_iff_forall_mem.mp ?_)).trans <| (W3_keep m c _ (by decide)).trans <|
    (W2_keep m c _ (by decide)).trans <| StableHlo.after_of_forall_not_mem _ _ (List.forall_iff_forall_mem.mp ?_) <;>
  (simp only [hostOps0, hostOps2, List.Forall, StableHlo.nullary_writes, StableHlo.unary_writes, StableHlo.binary_writes, StableHlo.ternary_writes, StableHlo.quaternary_writes, StableHlo.reshape_writes, StableHlo.binaryIndexed_writes, Finset.mem_singleton]
   repeat' apply And.intro
   all_goals exact StableHlo.devRef_ne_of_ne (by decide))

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    icases HO with ⟨%W, HO⟩; iexists W; isplitr; · ipureintro; exact fun _ _ => Or.inl trivial
    iexact HO
  hin c := by
    rw [show (pdats m 0 c).Φ 0 = Pipeline.ΦA spec0 c from Phi0_first (V1 m) c]; unfold Pipeline.ΦA
    iintro ⟨Hp, -, Hr⟩
    iframe
  hout c := by
    rw [Pipeline.ownSems0_none]
    refine (show (pdats m 0 c).Φ (Fin.last _) ⊢ Pipeline.ΦA spec0 c from hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    icases HO with ⟨%W, HO⟩; iexists W; isplitr; · ipureintro; exact fun _ _ => Or.inl trivial
    iexact HO
  hin c := by
    rw [show (pdats m 1 c).Φ 0 = Pipeline.ΦA spec1 c from Phi1_first (V2 m) c]; unfold Pipeline.ΦA
    iintro ⟨Hp, -, Hr⟩
    iframe
  hout c := by
    rw [Pipeline.ownSems0_none]
    refine (show (pdats m 1 c).Φ (Fin.last _) ⊢ Pipeline.ΦA spec1 c from hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

theorem arg_kept (c : Dev nD) (mem : (ℓ : Loc nD τ sig) → Buf (Elt F) ℓ) (h : ∀ b ∈ Pipeline.ucRefs τ sig, mem (((c : Thread nD τ)).1, b) = W4 m c b)
    (b : Ref sig .tc) (hs : ¬(Proc.devRef .tc b : DevRef τ sig).isScoped) (hb : b ∈ [main_arg0, main_arg1, main_arg2, main_arg3, main_arg4, main_arg5, main_arg6]) :
    mem ((c.tc : Thread nD τ).loc b) = m ((c.tc : Thread nD τ).loc b) :=
  (h _ (mem_uc b hs)).trans (W4_arg m c b hb)

/-- The run ends with the result at `W4` and every argument unchanged. -/
theorem run_result : θ_run defs (onTc (τ := τ) (main (F := F))) ⟨m, fun _ => 0, ρ⟩ (fun r => ∀ c : Dev nD,
      r.2.mem ((c.tc : Thread nD τ).loc main_v7) = W4 m c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨h c _ (mem_uc main_v7 (by decide)),
    arg_kept m c r.2.mem (h c) main_arg0 (by decide) (by decide), arg_kept m c r.2.mem (h c) main_arg1 (by decide) (by decide),
    arg_kept m c r.2.mem (h c) main_arg2 (by decide) (by decide), arg_kept m c r.2.mem (h c) main_arg3 (by decide) (by decide),
    arg_kept m c r.2.mem (h c) main_arg4 (by decide) (by decide), arg_kept m c r.2.mem (h c) main_arg5 (by decide) (by decide),
    arg_kept m c r.2.mem (h c) main_arg6 (by decide) (by decide)⟩) (run_all m ρ)

/-- Every argument ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_result m ρ)

end Cert.KernelIdeal.Hand

end
-- ==== Proof.KI.V0Pieces.lean ====
import proofs.«405638_j50903952392412_1_alg».proof.Proof.KI.Frame0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val0

open Idealize.ShloMosaic Idealize.ShloMosaic.TcCoe Idealize.ShloMosaic.Tactic
open Idealize.SL.Sem
open Idealize.ShloMosaic.Pipeline (Dat)
open Cert.KernelIdeal Cert.KernelIdeal.Gen Cert.KernelIdeal.Hand
open Idealize.ShloMosaic.ValueIdx

variable {F : FTy → Type} [FloatOps F]

theorem hz : (![0, 0] : Fin 2 → Nat) = fun _ => 0 := funext fun a => by fin_cases a <;> rfl

def scl (i : grid0.Coords) (a : Vec F S512x64 .f32) : Vec F S512x8 .f32 :=
  View.ld a (Rect.unit (s := S512x64) (k0_off1 i) S512x8.size (k0_off1_inb i))

def wgate (i : grid0.Coords) (q : Vec F S512x512 .i32) (a : Vec F S512x64 .f32) : FVec F S512x512 .bf16 :=
  k0_pay14 (k0_pay6 (scl i a)) (k0_pay11 q (k0_pay8 q) (k0_pay9 q) (k0_pay10 (F := F))) (k0_pay12 q) (k0_pay13 (F := F))

def wup (i : grid0.Coords) (q : Vec F S512x512 .i32) (a : Vec F S512x64 .f32) : FVec F S512x512 .bf16 :=
  k0_pay17 q (k0_pay7 (scl i a)) (k0_pay15 q) (k0_pay16 q)

def gstep (i : grid0.Coords) (x : Vec F S4096x512 .bf16) (q : Vec F S512x512 .i32) (a : Vec F S512x64 .f32) (acc : Vec F S4096x512 .f32) : Vec F S4096x512 .f32 :=
  k0_pay18 (k0_pay5 x) (wgate i q a) acc

def ustep (i : grid0.Coords) (x : Vec F S4096x512 .bf16) (q : Vec F S512x512 .i32) (a : Vec F S512x64 .f32) (acc : Vec F S4096x512 .f32) : Vec F S4096x512 .f32 :=
  k0_pay1 (k0_pay5 x) (wup i q a) acc

section
variable (c : Dev nD) (t : Fin cfg0.N) (x0 : Vec F S4096x512 .bf16) (x1 : Vec F S512x512 .i32) (x2 : Vec F S512x64 .f32)
  (x3 : Vec F S512x512 .i32) (x4 : Vec F S512x64 .f32) (xs0 xs1 : Vec F S4096x512 .f32)

/-- First step of a row: zero plus this step's product. -/
theorem piece_A_0 (h0 : t.val % 8 = 0) (h1 : ¬t.val % 8 = 7) : rd VS0_0 (runA c t x0 x1 x2 x3 x4 h0 h1).2.1 = gstep (grid0.coords t) x0 x1 x2 (k0_pay3 (F := F)) := by
  unfold rd; rw [View.read_writes_eq_canon _ _ _ (coverA c t x0 x1 x2 x3 x4 h0 h1).1]
  unfold runA kernelRun0_A
  dsimp only
  sl_unfold_words
  rw [View.canon_cons_unit_zero (S := S4096x512) hz]
  simp only [View.readAt_eq_ld, (hs0_0 t).read_unread, (hs0_1 t).read_unread, (hs0_2 t).read_unread, (hs0_3 t).read_unread, (hs0_4 t).read_unread, (hs0_5 t).read_unread, (Memref.isWhole_whole cc0_scratch0).read_unread, (Memref.isWhole_whole cc0_scratch1).read_unread, View.ld_unit_zero (S := S4096x512) hz, View.ld_unit_zero (S := S512x512) hz, View.readCov_unit_zero (S := S4096x512) _ hz]
  rfl
theorem piece_A_1 (h0 : t.val % 8 = 0) (h1 : ¬t.val % 8 = 7) : rd VS0_1 (runA c t x0 x1 x2 x3 x4 h0 h1).2.2.1 = ustep (grid0.coords t) x0 x3 x4 (k0_pay4 (F := F)) := by
  unfold rd; rw [View.read_writes_eq_canon _ _ _ (coverA c t x0 x1 x2 x3 x4 h0 h1).2]
  unfold runA kernelRun0_A
  dsimp only
  sl_unfold_words
  rw [View.canon_cons_unit_zero (S := S4096x512) hz]
  simp only [View.readAt_eq_ld, (hs0_0 t).read_unread, (hs0_1 t).read_unread, (hs0_2 t).read_unread, (hs0_3 t).read_unread, (hs0_4 t).read_unread, (hs0_5 t).read_unread, (Memref.isWhole_whole cc0_scratch0).read_unread, (Memref.isWhole_whole cc0_scratch1).read_unread, View.ld_unit_zero (S := S4096x512) hz, View.ld_unit_zero (S := S512x512) hz, View.readCov_unit_zero (S := S4096x512) _ hz]
  rfl

/-- Any later step: the entering value plus this step's product. -/
theorem piece_B_0 (h0 : ¬t.val % 8 = 0) (h1 : ¬t.val % 8 = 7) : rd VS0_0 (runB c t x0 x1 x2 x3 x4 xs0 xs1 h0 h1).2.1 = gstep (grid0.coords t) x0 x1 x2 xs0 := by
  unfold rd; rw [View.read_writes_eq_canon _ _ _ (coverB c t x0 x1 x2 x3 x4 xs0 xs1 h0 h1).1]
  unfold runB kernelRun0_B
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, (Memref.isWhole_whole cc0_scratch0).read_unread, (Memref.isWhole_whole cc0_scratch1).read_unread, View.ld_unit_zero (S := S4096x512) hz, View.ld_unit_zero (S := S512x512) hz]
  rfl
theorem piece_B_1 (h0 : ¬t.val % 8 = 0) (h1 : ¬t.val % 8 = 7) : rd VS0_1 (runB c t x0 x1 x2 x3 x4 xs0 xs1 h0 h1).2.2.1 = ustep (grid0.coords t) x0 x3 x4 xs1 := by
  unfold rd; rw [View.read_writes_eq_canon _ _ _ (coverB c t x0 x1 x2 x3 x4 xs0 xs1 h0 h1).2]
  unfold runB kernelRun0_B
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, (Memref.isWhole_whole cc0_scratch0).read_unread, (Memref.isWhole_whole cc0_scratch1).read_unread, View.ld_unit_zero (S := S4096x512) hz, View.ld_unit_zero (S := S512x512) hz]
  rfl
theorem piece_C_0 (h0 : ¬t.val % 8 = 0) (h1 : t.val % 8 = 7) : rd VS0_0 (runC c t x0 x1 x2 x3 x4 xs0 xs1 h0 h1).2.1 = gstep (grid0.coords t) x0 x1 x2 xs0 := by
  unfold rd; rw [View.read_writes_eq_canon _ _ _ (coverC c t x0 x1 x2 x3 x4 xs0 xs1 h0 h1).2.1]
  unfold runC kernelRun0_C
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, (Memref.isWhole_whole cc0_scratch0).read_unread, (Memref.isWhole_whole cc0_scratch1).read_unread, View.ld_unit_zero (S := S4096x512) hz, View.ld_unit_zero (S := S512x512) hz]
  rfl
theorem piece_C_1 (h0 : ¬t.val % 8 = 0) (h1 : t.val % 8 = 7) : rd VS0_1 (runC c t x0 x1 x2 x3 x4 xs0 xs1 h0 h1).2.2.1 = ustep (grid0.coords t) x0 x3 x4 xs1 := by
  unfold rd; rw [View.read_writes_eq_canon _ _ _ (coverC c t x0 x1 x2 x3 x4 xs0 xs1 h0 h1).2.2]
  unfold runC kernelRun0_C
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, (Memref.isWhole_whole cc0_scratch0).read_unread, (Memref.isWhole_whole cc0_scratch1).read_unread, View.ld_unit_zero (S := S4096x512) hz, View.ld_unit_zero (S := S512x512) hz]
  rfl

/-- The last step's output block: the activation of the two new accumulator values. -/
theorem piece_C_5 (h0 : ¬t.val % 8 = 0) (h1 : t.val % 8 = 7) : rd VO0_5 (runC c t x0 x1 x2 x3 x4 xs0 xs1 h0 h1).1 = k0_pay2 (gstep (grid0.coords t) x0 x1 x2 xs0) (ustep (grid0.coords t) x0 x3 x4 xs1) := by
  unfold rd; rw [View.read_writes_eq_canon _ _ _ (coverC c t x0 x1 x2 x3 x4 xs0 xs1 h0 h1).1]
  unfold runC kernelRun0_C
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, (Memref.isWhole_whole cc0_scratch0).read_unread, (Memref.isWhole_whole cc0_scratch1).read_unread, View.ld_unit_zero (S := S4096x512) hz, View.ld_unit_zero (S := S512x512) hz, View.readCov_unit_zero (S := S4096x512) _ hz]
  rfl

end

end Cert.KernelIdeal.Val0

end
-- ==== Proof.Spec.lean ====
import Idealize.ShloMosaic.PureOps.Ideal
import Idealize.ShloMosaic.Lib.ValueIdx

noncomputable section

namespace Cert.Spec

open Idealize.ShloMosaic Idealize.ShloMosaic.ValueIdx

def tblWord : Fin 16 → BitVec 32 := fun
  | 0 => 0xBF800000#32 | 1 => 0xBF3239B1#32 | 2 => 0xBF066B30#32 | 3 => 0xBECA32A0#32 | 4 => 0xBE91A24D#32 | 5 => 0xBE3D353F#32 | 6 => 0xBDBA7871#32 | 7 => 0x00000000#32
  | 8 => 0x3DA2FAFF#32 | 9 => 0x3E24CAE3#32 | 10 => 0x3E7C04DD#32 | 11 => 0x3EAD033A#32 | 12 => 0x3EE1A4B8#32 | 13 => 0x3F1007AB#32 | 14 => 0x3F3913B3#32 | 15 => 0x3F800000#32
  | _ => 0#32

def code (q : BitVec 32) : EReal :=
  Ideal.ofBits .f32 (tblWord ⟨min q.toInt.toNat 15, by omega⟩)

def wgt {rows cols nblk : Nat} (q : (⟨2, ![rows, cols]⟩ : Shape).Idx → BitVec 32) (a : (⟨1, ![nblk]⟩ : Shape).Idx → EReal)
    (hb : ∀ (r : Fin rows) (c : Fin cols), r.val * (cols / 64) + c.val / 64 < nblk) (r : Fin rows) (c : Fin cols) : EReal :=
  code (q (ix2 r c)) * a (ix1 ⟨r.val * (cols / 64) + c.val / 64, hb r c⟩)

theorem blk_gate (r : Fin 14336) (c : Fin 4096) : r.val * (4096 / 64) + c.val / 64 < 917504 := by
  have := r.isLt; have := c.isLt; omega
theorem blk_down (r : Fin 4096) (c : Fin 14336) : r.val * (14336 / 64) + c.val / 64 < 917504 := by
  have := r.isLt; have := c.isLt; omega

def wUp (q : (⟨2, ![14336, 4096]⟩ : Shape).Idx → BitVec 32) (a : (⟨1, ![917504]⟩ : Shape).Idx → EReal) (m : Fin 14336) (h : Fin 4096) : EReal :=
  wgt q a blk_gate m h

def wDown (q : (⟨2, ![4096, 14336]⟩ : Shape).Idx → BitVec 32) (a : (⟨1, ![917504]⟩ : Shape).Idx → EReal) (d : Fin 4096) (m : Fin 14336) : EReal :=
  wgt q a blk_down d m

def proj (x : (⟨3, ![2, 2048, 4096]⟩ : Shape).Idx → EReal) (W : Fin 14336 → Fin 4096 → EReal) (b : Fin 2) (s : Fin 2048) (m : Fin 14336) : EReal :=
  ∑ h : Fin 4096, x (ix3 b s h) * W m h

def act (g u : EReal) : EReal := (g * Ideal.logistic g) * u

def hidden (x : (⟨3, ![2, 2048, 4096]⟩ : Shape).Idx → EReal)
    (gq : (⟨2, ![14336, 4096]⟩ : Shape).Idx → BitVec 32) (ga : (⟨1, ![917504]⟩ : Shape).Idx → EReal)
    (uq : (⟨2, ![14336, 4096]⟩ : Shape).Idx → BitVec 32) (ua : (⟨1, ![917504]⟩ : Shape).Idx → EReal)
    (b : Fin 2) (s : Fin 2048) (m : Fin 14336) : EReal :=
  act (proj x (wUp gq ga) b s m) (proj x (wUp uq ua) b s m)

def mlp (x : (⟨3, ![2, 2048, 4096]⟩ : Shape).Idx → EReal)
    (gq : (⟨2, ![14336, 4096]⟩ : Shape).Idx → BitVec 32) (ga : (⟨1, ![917504]⟩ : Shape).Idx → EReal)
    (uq : (⟨2, ![14336, 4096]⟩ : Shape).Idx → BitVec 32) (ua : (⟨1, ![917504]⟩ : Shape).Idx → EReal)
    (dq : (⟨2, ![4096, 14336]⟩ : Shape).Idx → BitVec 32) (da : (⟨1, ![917504]⟩ : Shape).Idx → EReal) :
    (⟨3, ![2, 2048, 4096]⟩ : Shape).Idx → EReal :=
  fun i => ∑ m : Fin 14336, hidden x gq ga uq ua (i 0) (i 1) m * wDown dq da (i 2) m

def InRange (q : BitVec 32) : Prop := 0 ≤ q.toInt ∧ q.toInt < 16

def kcode (q : BitVec 32) : EReal :=
  if q = 15#32 then Ideal.ofBits .f32 0x3F800000#32
  else if q = 14#32 then Ideal.ofBits .f32 0x3F3913B3#32
  else if q = 13#32 then Ideal.ofBits .f32 0x3F1007AB#32
  else if q = 12#32 then Ideal.ofBits .f32 0x3EE1A4B8#32
  else if q = 11#32 then Ideal.ofBits .f32 0x3EAD033A#32
  else if q = 10#32 then Ideal.ofBits .f32 0x3E7C04DD#32
  else if q = 9#32 then Ideal.ofBits .f32 0x3E24CAE3#32
  else if q = 8#32 then Ideal.ofBits .f32 0x3DA2FAFF#32
  else if q = 7#32 then Ideal.ofBits .f32 0x00000000#32
  else if q = 6#32 then Ideal.ofBits .f32 0xBDBA7871#32
  else if q = 5#32 then Ideal.ofBits .f32 0xBE3D353F#32
  else if q = 4#32 then Ideal.ofBits .f32 0xBE91A24D#32
  else if q = 3#32 then Ideal.ofBits .f32 0xBECA32A0#32
  else if q = 2#32 then Ideal.ofBits .f32 0xBF066B30#32
  else if q = 1#32 then Ideal.ofBits .f32 0xBF3239B1#32
  else Ideal.ofBits .f32 0xBF800000#32

theorem kcode_eq_code {q : BitVec 32} (h : InRange q) : kcode q = code q := by
  obtain ⟨h0, h1⟩ := h
  have hlt : q.toNat < 2 ^ 32 := q.isLt
  rw [BitVec.toInt_eq_toNat_cond] at h0 h1
  have hk : q.toNat < 16 := by
    by_cases hc : 2 * q.toNat < 2 ^ 32
    · rw [if_pos hc] at h1; omega
    · rw [if_neg hc] at h0; omega
  have hq : q = BitVec.ofNat 32 q.toNat := by simp
  generalize q.toNat = k at hq hk
  subst hq
  unfold code kcode
  interval_cases k <;> simp [tblWord] <;> decide

def kwgt {rows cols g : Nat} (q : (⟨2, ![rows, cols]⟩ : Shape).Idx → BitVec 32) (a : (⟨2, ![rows, g]⟩ : Shape).Idx → EReal)
    (hb : ∀ c : Fin cols, c.val / 64 < g) (r : Fin rows) (c : Fin cols) : EReal :=
  kcode (q (ix2 r c)) * a (ix2 r ⟨c.val / 64, hb c⟩)

theorem g64 (c : Fin 4096) : c.val / 64 < 64 := by have := c.isLt; omega
theorem g224 (c : Fin 14336) : c.val / 64 < 224 := by have := c.isLt; omega

end Cert.Spec

end
-- ==== Proof.KI.V0Index.lean ====
import proofs.«405638_j50903952392412_1_alg».proof.Proof.KI.V0Pieces
import proofs.«405638_j50903952392412_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val0

open Idealize.ShloMosaic Idealize.ShloMosaic.TcCoe Idealize.ShloMosaic.Tactic
open Idealize.SL.Sem
open Idealize.ShloMosaic.Pipeline (Dat)
open Cert.KernelIdeal Cert.KernelIdeal.Gen Cert.KernelIdeal.Hand
open Idealize.ShloMosaic.ValueIdx

variable {F : FTy → Type} [FloatOps F]

theorem sel_eq {α : Type} (w c : BitVec 32) (A B : α) :
    Scalar.select (IntOp.cmpi .eq w c) A B = if w = c then A else B := by
  unfold Scalar.select IntOp.cmpi
  by_cases h : w = c
  · subst h; simp
  · have hb : (w == c) = false := beq_eq_false_iff_ne.mpr h
    simp [hb, h]

theorem cmpi_at {s : Shape} {w : Nat} (p : CmpIPredicate) (x y : IVec s w) (i : s.Idx) : cmpi p x y i = IntOp.cmpi p (x i) (y i) := rfl

theorem gcode_apply (q : Vec Ideal S512x512 .i32) (j : S512x512.Idx) :
    select (k0_pay12 (F := Ideal) q) (k0_pay13 (F := Ideal)) (k0_pay11 q (k0_pay8 q) (k0_pay9 q) (k0_pay10 (F := Ideal))) j = Cert.Spec.kcode (q j) := by
  unfold k0_pay12 k0_pay13 k0_pay11 k0_pay8 k0_pay9 k0_pay10 Cert.Spec.kcode
  simp only [select_apply, cmpi_at, broadcast_apply, sel_eq]
  rfl

theorem expand_apply (v : FVec Ideal S512x8 .f32) (r cc : Fin 512) (hg : cc.val / 64 < 8) :
    shapeCast S512x512 (broadcastTo S512x8x64 (shapeCast S512x8x1 (shapeCast S512x8x1 v shapeCasts_S512x8_S512x8x1) shapeCasts_S512x8x1_S512x8x1) broadcasts_S512x8x1_S512x8x64) shapeCasts_S512x8x64_S512x512 (ix2 r cc)
      = v (ix2 r ⟨cc.val / 64, hg⟩) := by
  have hl : cc.val % 64 < 64 := Nat.mod_lt _ (by decide)
  refine (shapeCast_apply _ shapeCasts_S512x8x64_S512x512 (ix2 r cc) (ix3 r ⟨cc.val / 64, hg⟩ ⟨cc.val % 64, hl⟩) ?_).trans ?_
  · rw [Shape.rowMajor_val_three, Shape.rowMajor_val_two]
    show (r.val * 8 + cc.val / 64) * 64 + cc.val % 64 = r.val * 512 + cc.val
    omega
  refine (broadcastTo_apply _ broadcasts_S512x8x1_S512x8x64 _ (ix3 r ⟨cc.val / 64, hg⟩ (0 : Fin 1)) fun ax => ?_).trans ?_
  · match ax with
    | ⟨0, _⟩ => rfl
    | ⟨1, _⟩ => rfl
    | ⟨2, _⟩ => rfl
  rw [shapeCast_self]
  refine shapeCast_apply _ shapeCasts_S512x8_S512x8x1 _ (ix2 r ⟨cc.val / 64, hg⟩) ?_
  rw [Shape.rowMajor_val_three, Shape.rowMajor_val_two]
  show r.val * 8 + cc.val / 64 = (r.val * 8 + cc.val / 64) * 1 + 0
  omega

theorem pay5_eq (v : Vec F S4096x512 .bf16) : k0_pay5 v = v := shapeCast_self _ _
theorem pay6_eq (v : Vec F S512x8 .f32) : k0_pay6 v = v := shapeCast_self _ _
theorem pay7_eq (v : Vec F S512x8 .f32) : k0_pay7 v = v := shapeCast_self _ _

theorem wgate_apply (i : grid0.Coords) (q : Vec Ideal S512x512 .i32) (a : Vec Ideal S512x64 .f32) (r cc : Fin 512) (hg : cc.val / 64 < 8) :
    wgate (F := Ideal) i q a (ix2 r cc) = Cert.Spec.kcode (q (ix2 r cc)) * scl i a (ix2 r ⟨cc.val / 64, hg⟩) := by
  unfold wgate k0_pay14
  simp only [truncf_apply, mulf_apply]
  refine (congrArg₂ (· * ·) (gcode_apply q (ix2 r cc)) (expand_apply _ r cc hg)).trans ?_
  rw [pay6_eq]

theorem wup_apply (i : grid0.Coords) (q : Vec Ideal S512x512 .i32) (a : Vec Ideal S512x64 .f32) (r cc : Fin 512) (hg : cc.val / 64 < 8) :
    wup (F := Ideal) i q a (ix2 r cc) = Cert.Spec.kcode (q (ix2 r cc)) * scl i a (ix2 r ⟨cc.val / 64, hg⟩) := by
  unfold wup k0_pay17 k0_pay15 k0_pay16
  simp only [truncf_apply, mulf_apply, select_apply, cmpi_at, broadcast_apply, sel_eq]
  refine (congrArg₂ (fun (x y : EReal) => x * y) (?_ : _ = Cert.Spec.kcode (q (ix2 r cc))) (expand_apply _ r cc hg)).trans ?_
  · unfold Cert.Spec.kcode; rfl
  · rw [pay7_eq]

theorem mm_apply (x : FVec Ideal S4096x512 .bf16) (w : FVec Ideal S512x512 .bf16) (nn : Fin 4096) (r : Fin 512) :
    matmul dot_S4096x512_S512x512_S4096x512_1_1_0_0_n_n none x w (constant (F := Ideal) S4096x512 .f32 0x00000000#32) (ix2 nn r)
      = ∑ cc : Fin 512, x (ix2 nn cc) * w (ix2 r cc) := by
  show FloatOps.matmul _ none x w _ (ix2 nn r) = _
  rw [Ideal.matmul_constant_zero_apply, ← Equiv.sum_comp (contrEquiv1 dot_S4096x512_S512x512_S4096x512_1_1_0_0_n_n 512 rfl rfl).symm]
  refine Finset.sum_congr rfl fun cc _ => ?_
  have c2 := contrEquiv1_symm_val dot_S4096x512_S512x512_S4096x512_1_1_0_0_n_n 512 rfl rfl cc
  have l2 : dot_S4096x512_S512x512_S4096x512_1_1_0_0_n_n.lhsIdx (ix2 nn r) ((contrEquiv1 _ 512 rfl rfl).symm cc) = ix2 nn cc := by
    funext ax; apply Fin.ext
    match ax with
    | ⟨0, _⟩ => simp [DotDims.lhsIdx, dot_S4096x512_S512x512_S4096x512_1_1_0_0_n_n]; rfl
    | ⟨1, _⟩ => simp [DotDims.lhsIdx, dot_S4096x512_S512x512_S4096x512_1_1_0_0_n_n]; exact c2
  have r2 : dot_S4096x512_S512x512_S4096x512_1_1_0_0_n_n.rhsIdx (ix2 nn r) ((contrEquiv1 _ 512 rfl rfl).symm cc) = ix2 r cc := by
    funext ax; apply Fin.ext
    match ax with
    | ⟨0, _⟩ => simp [DotDims.rhsIdx, dot_S4096x512_S512x512_S4096x512_1_1_0_0_n_n]; rfl
    | ⟨1, _⟩ => simp [DotDims.rhsIdx, dot_S4096x512_S512x512_S4096x512_1_1_0_0_n_n]; exact c2
  rw [l2, r2]

theorem grp (cc : Fin 512) : cc.val / 64 < 8 := by have := cc.isLt; omega

theorem gstep_apply (i : grid0.Coords) (x : Vec Ideal S4096x512 .bf16) (q : Vec Ideal S512x512 .i32) (a : Vec Ideal S512x64 .f32)
    (acc : Vec Ideal S4096x512 .f32) (nn : Fin 4096) (r : Fin 512) :
    gstep (F := Ideal) i x q a acc (ix2 nn r)
      = acc (ix2 nn r) + ∑ cc : Fin 512, x (ix2 nn cc) * (Cert.Spec.kcode (q (ix2 r cc)) * scl i a (ix2 r ⟨cc.val / 64, grp cc⟩)) := by
  unfold gstep k0_pay18
  simp only [shapeCast_self, addf_apply]
  refine congrArg (acc (ix2 nn r) + ·) ?_
  refine (mm_apply _ _ nn r).trans ?_
  refine Finset.sum_congr rfl fun cc _ => ?_
  rw [pay5_eq, wgate_apply i q a r cc (grp cc)]

theorem ustep_apply (i : grid0.Coords) (x : Vec Ideal S4096x512 .bf16) (q : Vec Ideal S512x512 .i32) (a : Vec Ideal S512x64 .f32)
    (acc : Vec Ideal S4096x512 .f32) (nn : Fin 4096) (r : Fin 512) :
    ustep (F := Ideal) i x q a acc (ix2 nn r)
      = acc (ix2 nn r) + ∑ cc : Fin 512, x (ix2 nn cc) * (Cert.Spec.kcode (q (ix2 r cc)) * scl i a (ix2 r ⟨cc.val / 64, grp cc⟩)) := by
  unfold ustep k0_pay1
  simp only [shapeCast_self, addf_apply]
  refine congrArg (acc (ix2 nn r) + ·) ?_
  refine (mm_apply _ _ nn r).trans ?_
  refine Finset.sum_congr rfl fun cc _ => ?_
  rw [pay5_eq, wup_apply i q a r cc (grp cc)]

theorem pay3_apply (j : S4096x512.Idx) : k0_pay3 (F := Ideal) j = 0 := by
  unfold k0_pay3
  simp only [shapeCast_self, broadcast_apply]
  exact Ideal.ofBits_zero_f32

theorem pay4_apply (j : S4096x512.Idx) : k0_pay4 (F := Ideal) j = 0 := by
  unfold k0_pay4
  simp only [shapeCast_self, broadcast_apply]
  exact Ideal.ofBits_zero_f32

theorem pay2_apply (g u : Vec Ideal S4096x512 .f32) (j : S4096x512.Idx) :
    k0_pay2 (F := Ideal) g u j = Cert.Spec.act (g j) (u j) := rfl

end Cert.KernelIdeal.Val0

end
-- ==== Proof.KI.V0Inv.lean ====
import proofs.«405638_j50903952392412_1_alg».proof.Proof.KI.V0Index
import proofs.«405638_j50903952392412_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val0

open Idealize.ShloMosaic Idealize.ShloMosaic.TcCoe Idealize.ShloMosaic.Tactic
open Idealize.SL.Sem
open Idealize.ShloMosaic.Pipeline (Dat)
open Cert.KernelIdeal Cert.KernelIdeal.Gen Cert.KernelIdeal.Hand
open Idealize.ShloMosaic.ValueIdx

variable {F : FTy → Type} [FloatOps F]

variable (V : (c : Dev nD) → (b : Ref sig .tc) → Buf (Elt Ideal) ((c : Thread nD τ).loc b))

abbrev xarr (c : Dev nD) : Vec Ideal S4096x4096 .bf16 := V c main_v1
abbrev gqarr (c : Dev nD) : Vec Ideal S14336x4096 .i32 := V c main_arg1
abbrev gaarr (c : Dev nD) : Vec Ideal S14336x64 .f32 := V c main_v2
abbrev uqarr (c : Dev nD) : Vec Ideal S14336x4096 .i32 := V c main_arg3
abbrev uaarr (c : Dev nD) : Vec Ideal S14336x64 .f32 := V c main_v3

abbrev xblk (c : Dev nD) (t : Fin cfg0.N) : Vec Ideal S4096x512 .bf16 := iblk0 V c 0 t
abbrev gqblk (c : Dev nD) (t : Fin cfg0.N) : Vec Ideal S512x512 .i32 := iblk0 V c 1 t
abbrev gablk (c : Dev nD) (t : Fin cfg0.N) : Vec Ideal S512x64 .f32 := iblk0 V c 2 t
abbrev uqblk (c : Dev nD) (t : Fin cfg0.N) : Vec Ideal S512x512 .i32 := iblk0 V c 3 t
abbrev uablk (c : Dev nD) (t : Fin cfg0.N) : Vec Ideal S512x64 .f32 := iblk0 V c 4 t

theorem idx_facts : ∀ t : Fin cfg0.N,
    win0_0.index t (0 : Fin 2) = 0 ∧ win0_0.index t (1 : Fin 2) = t.val % 8
    ∧ win0_1.index t (0 : Fin 2) = t.val / 8 ∧ win0_1.index t (1 : Fin 2) = t.val % 8
    ∧ win0_2.index t (0 : Fin 2) = t.val / 8 ∧ win0_2.index t (1 : Fin 2) = 0
    ∧ win0_3.index t (0 : Fin 2) = t.val / 8 ∧ win0_3.index t (1 : Fin 2) = t.val % 8
    ∧ win0_4.index t (0 : Fin 2) = t.val / 8 ∧ win0_4.index t (1 : Fin 2) = 0
    ∧ win0_5.index t (0 : Fin 2) = 0 ∧ win0_5.index t (1 : Fin 2) = t.val / 8
    ∧ k0_off1 (grid0.coords t) (0 : Fin 2) = 0 ∧ k0_off1 (grid0.coords t) (1 : Fin 2) = t.val % 8 * 8 :=
  (by decide +kernel : ∀ t : Fin grid0.N, _)

theorem xblk_apply (c : Dev nD) (t : Fin cfg0.N) (nn : Fin 4096) (cc : Fin 512) (h : Fin 4096) (hh : h.val = t.val % 8 * 512 + cc.val) :
    xblk V c t (ix2 nn cc) = xarr V c (ix2 nn h) := by
  obtain ⟨e0, e1, -⟩ := idx_facts t
  show V c main_v1 (((cfg0.win 0).blk t).view.emb (ix2 nn cc)) = V c main_v1 (ix2 nn h)
  refine congrArg (V c main_v1) ?_
  funext a; apply Fin.ext
  match a with
  | ⟨0, _⟩ => show win0_0.index t (0 : Fin 2) * 4096 + 1 * nn.val = nn.val; rw [e0]; omega
  | ⟨1, _⟩ => show win0_0.index t (1 : Fin 2) * 512 + 1 * cc.val = h.val; rw [e1, hh]; omega

theorem gqblk_apply (c : Dev nD) (t : Fin cfg0.N) (r cc : Fin 512) (m : Fin 14336) (h : Fin 4096)
    (hm : m.val = t.val / 8 * 512 + r.val) (hh : h.val = t.val % 8 * 512 + cc.val) :
    gqblk V c t (ix2 r cc) = gqarr V c (ix2 m h) := by
  obtain ⟨-, -, e0, e1, -⟩ := idx_facts t
  show V c main_arg1 (((cfg0.win 1).blk t).view.emb (ix2 r cc)) = V c main_arg1 (ix2 m h)
  refine congrArg (V c main_arg1) ?_
  funext a; apply Fin.ext
  match a with
  | ⟨0, _⟩ => show win0_1.index t (0 : Fin 2) * 512 + 1 * r.val = m.val; rw [e0, hm]; omega
  | ⟨1, _⟩ => show win0_1.index t (1 : Fin 2) * 512 + 1 * cc.val = h.val; rw [e1, hh]; omega

theorem gablk_apply (c : Dev nD) (t : Fin cfg0.N) (r : Fin 512) (g : Fin 64) (m : Fin 14336)
    (hm : m.val = t.val / 8 * 512 + r.val) :
    gablk V c t (ix2 r g) = gaarr V c (ix2 m g) := by
  obtain ⟨-, -, -, -, e0, e1, -⟩ := idx_facts t
  show V c main_v2 (((cfg0.win 2).blk t).view.emb (ix2 r g)) = V c main_v2 (ix2 m g)
  refine congrArg (V c main_v2) ?_
  funext a; apply Fin.ext
  match a with
  | ⟨0, _⟩ => show win0_2.index t (0 : Fin 2) * 512 + 1 * r.val = m.val; rw [e0, hm]; omega
  | ⟨1, _⟩ => show win0_2.index t (1 : Fin 2) * 64 + 1 * g.val = g.val; rw [e1]; omega

theorem uqblk_apply (c : Dev nD) (t : Fin cfg0.N) (r cc : Fin 512) (m : Fin 14336) (h : Fin 4096)
    (hm : m.val = t.val / 8 * 512 + r.val) (hh : h.val = t.val % 8 * 512 + cc.val) :
    uqblk V c t (ix2 r cc) = uqarr V c (ix2 m h) := by
  obtain ⟨-, -, -, -, -, -, e0, e1, -⟩ := idx_facts t
  show V c main_arg3 (((cfg0.win 3).blk t).view.emb (ix2 r cc)) = V c main_arg3 (ix2 m h)
  refine congrArg (V c main_arg3) ?_
  funext a; apply Fin.ext
  match a with
  | ⟨0, _⟩ => show win0_3.index t (0 : Fin 2) * 512 + 1 * r.val = m.val; rw [e0, hm]; omega
  | ⟨1, _⟩ => show win0_3.index t (1 : Fin 2) * 512 + 1 * cc.val = h.val; rw [e1, hh]; omega

theorem uablk_apply (c : Dev nD) (t : Fin cfg0.N) (r : Fin 512) (g : Fin 64) (m : Fin 14336)
    (hm : m.val = t.val / 8 * 512 + r.val) :
    uablk V c t (ix2 r g) = uaarr V c (ix2 m g) := by
  obtain ⟨-, -, -, -, -, -, -, -, e0, e1, -⟩ := idx_facts t
  show V c main_v3 (((cfg0.win 4).blk t).view.emb (ix2 r g)) = V c main_v3 (ix2 m g)
  refine congrArg (V c main_v3) ?_
  funext a; apply Fin.ext
  match a with
  | ⟨0, _⟩ => show win0_4.index t (0 : Fin 2) * 512 + 1 * r.val = m.val; rw [e0, hm]; omega
  | ⟨1, _⟩ => show win0_4.index t (1 : Fin 2) * 64 + 1 * g.val = g.val; rw [e1]; omega

theorem scl_apply (t : Fin cfg0.N) (a : Vec Ideal S512x64 .f32) (r : Fin 512) (g8 : Fin 8) (g : Fin 64)
    (hg : g.val = t.val % 8 * 8 + g8.val) :
    scl (F := Ideal) (grid0.coords t) a (ix2 r g8) = a (ix2 r g) := by
  obtain ⟨-, -, -, -, -, -, -, -, -, -, -, -, e0, e1⟩ := idx_facts t
  unfold scl
  show a _ = a (ix2 r g)
  refine congrArg a ?_
  funext ax; apply Fin.ext
  match ax with
  | ⟨0, _⟩ => show k0_off1 (grid0.coords t) (0 : Fin 2) + 1 * r.val = r.val; rw [e0]; omega
  | ⟨1, _⟩ => show k0_off1 (grid0.coords t) (1 : Fin 2) + 1 * g8.val = g.val; rw [e1, hg]; omega

def gterm (c : Dev nD) (nn : Fin 4096) (m h : ℕ) : EReal :=
  if hh : m < 14336 ∧ h < 4096 then
    xarr V c (ix2 nn ⟨h, hh.2⟩) * Cert.Spec.kwgt (gqarr V c) (gaarr V c) Cert.Spec.g64 ⟨m, hh.1⟩ ⟨h, hh.2⟩
  else 0

def uterm (c : Dev nD) (nn : Fin 4096) (m h : ℕ) : EReal :=
  if hh : m < 14336 ∧ h < 4096 then
    xarr V c (ix2 nn ⟨h, hh.2⟩) * Cert.Spec.kwgt (uqarr V c) (uaarr V c) Cert.Spec.g64 ⟨m, hh.1⟩ ⟨h, hh.2⟩
  else 0

theorem gterm_step (c : Dev nD) (t : Fin cfg0.N) (nn : Fin 4096) (r cc : Fin 512) :
    xblk V c t (ix2 nn cc) * (Cert.Spec.kcode (gqblk V c t (ix2 r cc)) * scl (grid0.coords t) (gablk V c t) (ix2 r ⟨cc.val / 64, grp cc⟩))
      = gterm V c nn (t.val / 8 * 512 + r.val) (t.val % 8 * 512 + cc.val) := by
  have hN : t.val < 224 := lt_of_lt_of_eq t.isLt (show cfg0.N = 224 from N_0)
  have hr := r.isLt
  have hc := cc.isLt
  have hm : t.val / 8 * 512 + r.val < 14336 := by omega
  have hh : t.val % 8 * 512 + cc.val < 4096 := by omega
  unfold gterm
  rw [dif_pos ⟨hm, hh⟩]
  unfold Cert.Spec.kwgt
  rw [xblk_apply V c t nn cc ⟨_, hh⟩ rfl, gqblk_apply V c t r cc ⟨_, hm⟩ ⟨_, hh⟩ rfl rfl,
    scl_apply t (gablk V c t) r ⟨cc.val / 64, grp cc⟩ ⟨(t.val % 8 * 512 + cc.val) / 64, Cert.Spec.g64 ⟨_, hh⟩⟩
      (by show (t.val % 8 * 512 + cc.val) / 64 = t.val % 8 * 8 + cc.val / 64; omega),
    gablk_apply V c t r _ ⟨_, hm⟩ rfl]

theorem uterm_step (c : Dev nD) (t : Fin cfg0.N) (nn : Fin 4096) (r cc : Fin 512) :
    xblk V c t (ix2 nn cc) * (Cert.Spec.kcode (uqblk V c t (ix2 r cc)) * scl (grid0.coords t) (uablk V c t) (ix2 r ⟨cc.val / 64, grp cc⟩))
      = uterm V c nn (t.val / 8 * 512 + r.val) (t.val % 8 * 512 + cc.val) := by
  have hN : t.val < 224 := lt_of_lt_of_eq t.isLt (show cfg0.N = 224 from N_0)
  have hr := r.isLt
  have hc := cc.isLt
  have hm : t.val / 8 * 512 + r.val < 14336 := by omega
  have hh : t.val % 8 * 512 + cc.val < 4096 := by omega
  unfold uterm
  rw [dif_pos ⟨hm, hh⟩]
  unfold Cert.Spec.kwgt
  rw [xblk_apply V c t nn cc ⟨_, hh⟩ rfl, uqblk_apply V c t r cc ⟨_, hm⟩ ⟨_, hh⟩ rfl rfl,
    scl_apply t (uablk V c t) r ⟨cc.val / 64, grp cc⟩ ⟨(t.val % 8 * 512 + cc.val) / 64, Cert.Spec.g64 ⟨_, hh⟩⟩
      (by show (t.val % 8 * 512 + cc.val) / 64 = t.val % 8 * 8 + cc.val / 64; omega),
    uablk_apply V c t r _ ⟨_, hm⟩ rfl]

theorem step_sum (f : ℕ → EReal) (k : ℕ) (a : EReal) (g : Fin 512 → EReal)
    (ha : a = ∑ h ∈ Finset.range (k * 512), f h) (hg : ∀ cc, g cc = f (k * 512 + cc.val)) :
    a + ∑ cc : Fin 512, g cc = ∑ h ∈ Finset.range ((k + 1) * 512), f h := by
  rw [ha, add_one_mul, Finset.sum_range_add, Finset.sum_range (fun x => f (k * 512 + x))]
  exact congrArg _ (Finset.sum_congr rfl fun cc _ => hg cc)

/-- One step extends the gate sum by the step's 512 columns. -/
theorem gstep_sum (c : Dev nD) (t : Fin cfg0.N) (acc : Vec Ideal S4096x512 .f32) (nn : Fin 4096) (r : Fin 512)
    (ih : acc (ix2 nn r) = ∑ h ∈ Finset.range (t.val % 8 * 512), gterm V c nn (t.val / 8 * 512 + r.val) h) :
    gstep (grid0.coords t) (xblk V c t) (gqblk V c t) (gablk V c t) acc (ix2 nn r)
      = ∑ h ∈ Finset.range ((t.val % 8 + 1) * 512), gterm V c nn (t.val / 8 * 512 + r.val) h :=
  (gstep_apply (grid0.coords t) (xblk V c t) (gqblk V c t) (gablk V c t) acc nn r).trans
    (step_sum (gterm V c nn (t.val / 8 * 512 + r.val)) (t.val % 8) _ _ ih (fun cc => gterm_step V c t nn r cc))

/-- Likewise the up sum. -/
theorem ustep_sum (c : Dev nD) (t : Fin cfg0.N) (acc : Vec Ideal S4096x512 .f32) (nn : Fin 4096) (r : Fin 512)
    (ih : acc (ix2 nn r) = ∑ h ∈ Finset.range (t.val % 8 * 512), uterm V c nn (t.val / 8 * 512 + r.val) h) :
    ustep (grid0.coords t) (xblk V c t) (uqblk V c t) (uablk V c t) acc (ix2 nn r)
      = ∑ h ∈ Finset.range ((t.val % 8 + 1) * 512), uterm V c nn (t.val / 8 * 512 + r.val) h :=
  (ustep_apply (grid0.coords t) (xblk V c t) (uqblk V c t) (uablk V c t) acc nn r).trans
    (step_sum (uterm V c nn (t.val / 8 * 512 + r.val)) (t.val % 8) _ _ ih (fun cc => uterm_step V c t nn r cc))

/-- After step k of a row both accumulators hold their contractions over the first 512 (k + 1) columns: induction on the point, a row's first step starting from zero. -/
theorem acc_inv (c : Dev nD) (n : ℕ) : ∀ t : Fin cfg0.N, t.val = n → ∀ (nn : Fin 4096) (r : Fin 512),
    (outsAt0 V c t.val t.isLt).2.1 (ix2 nn r) = ∑ h ∈ Finset.range ((t.val % 8 + 1) * 512), gterm V c nn (t.val / 8 * 512 + r.val) h
    ∧ (outsAt0 V c t.val t.isLt).2.2 (ix2 nn r) = ∑ h ∈ Finset.range ((t.val % 8 + 1) * 512), uterm V c nn (t.val / 8 * 512 + r.val) h := by
  induction n using Nat.strong_induction_on with
  | _ n ih =>
    intro t hn nn r
    by_cases h0 : t.val % 8 = 0
    · have h1 : ¬t.val % 8 = 7 := by omega
      rw [outsAt0_A V c t h0 h1]; dsimp only [outA, RA]
      exact ⟨(congrFun (piece_A_0 c t (iblk0 V c 0 t) (iblk0 V c 1 t) (iblk0 V c 2 t) (iblk0 V c 3 t) (iblk0 V c 4 t) h0 h1) _).trans (gstep_sum V c t _ nn r (by rw [pay3_apply, h0, Nat.zero_mul, Finset.range_zero, Finset.sum_empty])),
        (congrFun (piece_A_1 c t (iblk0 V c 0 t) (iblk0 V c 1 t) (iblk0 V c 2 t) (iblk0 V c 3 t) (iblk0 V c 4 t) h0 h1) _).trans (ustep_sum V c t _ nn r (by rw [pay4_apply, h0, Nat.zero_mul, Finset.range_zero, Finset.sum_empty]))⟩
    · have hlt : t.val - 1 < cfg0.N := Nat.lt_of_le_of_lt (Nat.sub_le _ _) t.isLt
      have e1 : (t.val - 1) % 8 + 1 = t.val % 8 := by omega
      have e2 : (t.val - 1) / 8 = t.val / 8 := by omega
      have ihp := ih (t.val - 1) (by omega) ⟨t.val - 1, hlt⟩ rfl nn r
      dsimp only at ihp
      rw [e1, e2] at ihp
      by_cases h1 : t.val % 8 = 7
      · rw [outsAt0_C V c t h0 h1]; dsimp only [outC, RC]
        exact ⟨(congrFun (piece_C_0 c t (iblk0 V c 0 t) (iblk0 V c 1 t) (iblk0 V c 2 t) (iblk0 V c 3 t) (iblk0 V c 4 t) _ _ h0 h1) _).trans (gstep_sum V c t _ nn r ihp.1),
          (congrFun (piece_C_1 c t (iblk0 V c 0 t) (iblk0 V c 1 t) (iblk0 V c 2 t) (iblk0 V c 3 t) (iblk0 V c 4 t) _ _ h0 h1) _).trans (ustep_sum V c t _ nn r ihp.2)⟩
      · rw [outsAt0_B V c t h0 h1]; dsimp only [outB, RB]
        exact ⟨(congrFun (piece_B_0 c t (iblk0 V c 0 t) (iblk0 V c 1 t) (iblk0 V c 2 t) (iblk0 V c 3 t) (iblk0 V c 4 t) _ _ h0 h1) _).trans (gstep_sum V c t _ nn r ihp.1),
          (congrFun (piece_B_1 c t (iblk0 V c 0 t) (iblk0 V c 1 t) (iblk0 V c 2 t) (iblk0 V c 3 t) (iblk0 V c 4 t) _ _ h0 h1) _).trans (ustep_sum V c t _ nn r ihp.2)⟩

/-- The block written at a row's last step is the activation of the two finished sums. -/
theorem out_C (c : Dev nD) (t : Fin cfg0.N) (h1 : t.val % 8 = 7) (y : S4096x512.Idx) :
    (outsAt0 V c t.val t.isLt).1 y
      = Cert.Spec.act ((outsAt0 V c t.val t.isLt).2.1 y) ((outsAt0 V c t.val t.isLt).2.2 y) := by
  have h0 : ¬t.val % 8 = 0 := by omega
  rw [outsAt0_C V c t h0 h1]; dsimp only [outC, RC]
  exact (congrFun (piece_C_5 c t (iblk0 V c 0 t) (iblk0 V c 1 t) (iblk0 V c 2 t) (iblk0 V c 3 t) (iblk0 V c 4 t) _ _ h0 h1) y).trans <| (pay2_apply _ _ _).trans <|
    congrArg₂ Cert.Spec.act (congrFun (piece_C_0 c t (iblk0 V c 0 t) (iblk0 V c 1 t) (iblk0 V c 2 t) (iblk0 V c 3 t) (iblk0 V c 4 t) _ _ h0 h1) y).symm (congrFun (piece_C_1 c t (iblk0 V c 0 t) (iblk0 V c 1 t) (iblk0 V c 2 t) (iblk0 V c 3 t) (iblk0 V c 4 t) _ _ h0 h1) y).symm

end Cert.KernelIdeal.Val0

end
-- ==== Proof.KI.Value0.lean ====
import proofs.«405638_j50903952392412_1_alg».proof.Proof.KI.V0Inv
import proofs.«405638_j50903952392412_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val0

open Idealize.ShloMosaic Idealize.ShloMosaic.TcCoe Idealize.ShloMosaic.Tactic
open Idealize.SL.Sem
open Idealize.ShloMosaic.Pipeline (Dat)
open Cert.KernelIdeal Cert.KernelIdeal.Gen Cert.KernelIdeal.Hand
open Idealize.ShloMosaic.ValueIdx

variable {F : FTy → Type} [FloatOps F]

variable (V : (c : Dev nD) → (b : Ref sig .tc) → Buf (Elt Ideal) ((c : Thread nD τ).loc b))

def hid (c : Dev nD) (n : Fin 4096) (mm : Fin 14336) : EReal :=
  Cert.Spec.act (∑ h : Fin 4096, xarr V c (ix2 n h) * Cert.Spec.kwgt (gqarr V c) (gaarr V c) Cert.Spec.g64 mm h)
    (∑ h : Fin 4096, xarr V c (ix2 n h) * Cert.Spec.kwgt (uqarr V c) (uaarr V c) Cert.Spec.g64 mm h)

def G (c : Dev nD) : Vec Ideal S4096x14336 .bf16 := fun i => hid V c (idxEquiv2 i).1 (idxEquiv2 i).2

theorem full_sum_g (c : Dev nD) (nn : Fin 4096) (m : Fin 14336) :
    ∑ h ∈ Finset.range 4096, gterm V c nn m.val h
      = ∑ h : Fin 4096, xarr V c (ix2 nn h) * Cert.Spec.kwgt (gqarr V c) (gaarr V c) Cert.Spec.g64 m h := by
  rw [Finset.sum_range]
  refine Finset.sum_congr rfl fun h _ => ?_
  unfold gterm
  rw [dif_pos ⟨m.isLt, h.isLt⟩]

theorem full_sum_u (c : Dev nD) (nn : Fin 4096) (m : Fin 14336) :
    ∑ h ∈ Finset.range 4096, uterm V c nn m.val h
      = ∑ h : Fin 4096, xarr V c (ix2 nn h) * Cert.Spec.kwgt (uqarr V c) (uaarr V c) Cert.Spec.g64 m h := by
  rw [Finset.sum_range]
  refine Finset.sum_congr rfl fun h _ => ?_
  unfold uterm
  rw [dif_pos ⟨m.isLt, h.isLt⟩]

theorem out_eq_G (c : Dev nD) (t : Fin cfg0.N) (h7 : t.val % 8 = 7) (y : S4096x512.Idx) :
    (outsAt0 V c t.val t.isLt).1 y = G V c (((cfg0.win 5).blk t).view.emb y) := by
  have hN : t.val < 224 := lt_of_lt_of_eq t.isLt (show cfg0.N = 224 from N_0)
  obtain ⟨-, -, -, -, -, -, -, -, -, -, e0, e1, -, -⟩ := idx_facts t
  obtain ⟨nn, r, rfl⟩ : ∃ (nn : Fin 4096) (r : Fin 512), y = ix2 nn r := ⟨y 0, y 1, eq_ix2 y⟩
  have hr := r.isLt
  have hm : t.val / 8 * 512 + r.val < 14336 := by omega
  have hemb : ((cfg0.win 5).blk t).view.emb (ix2 nn r) = ix2 nn ⟨t.val / 8 * 512 + r.val, hm⟩ := by
    funext a; apply Fin.ext
    match a with
    | ⟨0, _⟩ => show win0_5.index t (0 : Fin 2) * 4096 + 1 * nn.val = nn.val; rw [e0]; omega
    | ⟨1, _⟩ => show win0_5.index t (1 : Fin 2) * 512 + 1 * r.val = t.val / 8 * 512 + r.val; rw [e1]; omega
  rw [hemb]
  show _ = hid V c nn ⟨t.val / 8 * 512 + r.val, hm⟩
  obtain ⟨hg, hu⟩ := acc_inv V c t.val t rfl nn r
  rw [out_C V c t h7 (ix2 nn r), hg, hu, h7]
  exact congrArg₂ Cert.Spec.act (full_sum_g V c nn ⟨_, hm⟩) (full_sum_u V c nn ⟨_, hm⟩)

theorem flushed_eq (c : Dev nD) (t : Fin cfg0.N) (hf : (cfg0.win 5).flush t = true) :
    (dat0 V c).flushed 5 t = ((cfg0.win 5).blk t).view.read (Elt Ideal) (G V c) := by
  have h7 : t.val % 8 = 7 := (flush0_5 t).mp hf
  show (cfg0.win 5).cut (grid0.coords t) ((dat0 V c).after 5 t) = _
  rw [after0_5]
  exact funext fun y => out_eq_G V c t h7 y

theorem cover (i : S4096x14336.Idx) :
    ∃ t : Fin cfg0.N, (cfg0.win 5).flush t = true ∧ i ∈ ((cfg0.win 5).blk t).view.set := by
  have hN : cfg0.N = 224 := N_0
  have h0 : (i 0).val < 4096 := (i 0).isLt
  have h1 : (i 1).val < 14336 := (i 1).isLt
  have ht : (i 1).val / 512 * 8 + 7 < cfg0.N := by rw [hN]; omega
  obtain ⟨t, tv⟩ : ∃ t : Fin cfg0.N, t.val = (i 1).val / 512 * 8 + 7 := ⟨⟨_, ht⟩, rfl⟩
  obtain ⟨-, -, -, -, -, -, -, -, -, -, e0, e1, -, -⟩ := idx_facts t
  refine ⟨t, (flush0_5 t).mpr (by rw [tv]; omega), ?_⟩
  show i ∈ ((View.whole main_v5).slice (win0_5.rect t)).set
  rw [View.set_slice_whole, Rect.mem_set_unit]
  intro a
  match a with
  | ⟨0, _⟩ =>
    show win0_5.index t (0 : Fin 2) * 4096 ≤ (i 0).val ∧ (i 0).val < win0_5.index t (0 : Fin 2) * 4096 + 4096
    rw [e0]; omega
  | ⟨1, _⟩ =>
    show win0_5.index t (1 : Fin 2) * 512 ≤ (i 1).val ∧ (i 1).val < win0_5.index t (1 : Fin 2) * 512 + 512
    rw [e1, tv]; omega

theorem arr0_final (c : Dev nD) (n : Fin 4096) (mm : Fin 14336) :
    (Cert.KernelIdeal.Hand.dat0 (F := Ideal) V c).arrAt 5 cfg0.N (ix2 n mm)
      = Cert.Spec.act (∑ h : Fin 4096, xarr V c (ix2 n h) * Cert.Spec.kwgt (gqarr V c) (gaarr V c) Cert.Spec.g64 mm h)
          (∑ h : Fin 4096, xarr V c (ix2 n h) * Cert.Spec.kwgt (uqarr V c) (uaarr V c) Cert.Spec.g64 mm h) :=
  (congrFun ((dat0 V c).arrAt_eq_of_cover 5 (G V c) (flushed_eq V c) cover) (ix2 n mm)).trans rfl

end Cert.KernelIdeal.Val0

end
-- ==== Proof.KI.V1Pieces.lean ====
import proofs.«405638_j50903952392412_1_alg».proof.Proof.KI.Frame1
import proofs.«405638_j50903952392412_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val1

open Idealize.ShloMosaic Idealize.ShloMosaic.TcCoe Idealize.ShloMosaic.Tactic
open Idealize.SL.Sem
open Idealize.ShloMosaic.Pipeline (Dat)
open Cert.KernelIdeal Cert.KernelIdeal.Gen Cert.KernelIdeal.Hand
open Idealize.ShloMosaic.ValueIdx

variable {F : FTy → Type} [FloatOps F]

theorem hz : (![0, 0] : Fin 2 → Nat) = fun _ => 0 := funext fun a => by fin_cases a <;> rfl

abbrev sclBlk (i : grid1.Coords) (x2 : Vec F S512x224 .f32) : Vec F S512x16 .f32 :=
  View.ld x2 (Rect.unit (s := S512x224) (k1_off1 i) S512x16.size (k1_off1_inb i))

def step1 (i : grid1.Coords) (x0 : Vec F S4096x1024 .bf16) (x1 : Vec F S512x1024 .i32) (x2 : Vec F S512x224 .f32) (acc : Vec F S4096x512 .f32) : Vec F S4096x512 .f32 :=
  k1_pay1 (k1_pay3 x0) (k1_pay6 x1 (k1_pay4 (sclBlk i x2)) (k1_pay5 x1)) acc

section
variable (c : Dev nD) (t : Fin cfg1.N) (x0 : Vec F S4096x1024 .bf16) (x1 : Vec F S512x1024 .i32) (x2 : Vec F S512x224 .f32) (xs0 : Vec F S4096x512 .f32)

/-- Each case leaves one step on what entered (zero at a row's first step); the last also stores it to the output block. -/
theorem pieceA (h0 : t.val % 14 = 0) (h1 : ¬t.val % 14 = 13) : rd VS1_0 (run1A c t x0 x1 x2 h0 h1).2.1 = step1 (grid1.coords t) x0 x1 x2 k1_pay2 := by
  unfold rd; rw [View.read_writes_eq_canon _ _ _ (cover1A c t x0 x1 x2 h0 h1)]
  unfold run1A kernelRun1_A
  dsimp only
  sl_unfold_words
  rw [View.canon_cons_unit_zero (S := S4096x512) hz, View.readCov_unit_zero (S := S4096x512) _ hz]
  simp only [View.readAt_eq_ld, (hs1_0 t).read_unread, (hs1_1 t).read_unread, (hs1_2 t).read_unread, (Memref.isWhole_whole cc1_scratch0).read_unread, View.ld_unit_zero (S := S4096x1024) hz, View.ld_unit_zero (S := S512x1024) hz, View.ld_unit_zero (S := S4096x512) hz]
  rfl
theorem pieceB (h0 : ¬t.val % 14 = 0) (h1 : ¬t.val % 14 = 13) : rd VS1_0 (run1B c t x0 x1 x2 xs0 h0 h1).2.1 = step1 (grid1.coords t) x0 x1 x2 xs0 := by
  unfold rd; rw [View.read_writes_eq_canon _ _ _ (cover1B c t x0 x1 x2 xs0 h0 h1)]
  unfold run1B kernelRun1_B
  dsimp only
  sl_unfold_words
  rw [View.canon_unit_zero hz]
  simp only [View.readAt_eq_ld, (hs1_0 t).read_unread, (hs1_1 t).read_unread, (hs1_2 t).read_unread, (Memref.isWhole_whole cc1_scratch0).read_unread, View.ld_unit_zero (S := S4096x1024) hz, View.ld_unit_zero (S := S512x1024) hz, View.ld_unit_zero (S := S4096x512) hz]
  rfl
theorem pieceC (h0 : ¬t.val % 14 = 0) (h1 : t.val % 14 = 13) : rd VS1_0 (run1C c t x0 x1 x2 xs0 h0 h1).2.1 = step1 (grid1.coords t) x0 x1 x2 xs0 := by
  unfold rd; rw [View.read_writes_eq_canon _ _ _ (cover1C c t x0 x1 x2 xs0 h0 h1).2]
  unfold run1C kernelRun1_C
  dsimp only
  sl_unfold_words
  rw [View.canon_unit_zero hz]
  simp only [View.readAt_eq_ld, (hs1_0 t).read_unread, (hs1_1 t).read_unread, (hs1_2 t).read_unread, (Memref.isWhole_whole cc1_scratch0).read_unread, View.ld_unit_zero (S := S4096x1024) hz, View.ld_unit_zero (S := S512x1024) hz, View.ld_unit_zero (S := S4096x512) hz]
  rfl
theorem pieceCo (h0 : ¬t.val % 14 = 0) (h1 : t.val % 14 = 13) : rd VO1_3 (run1C c t x0 x1 x2 xs0 h0 h1).1 = step1 (grid1.coords t) x0 x1 x2 xs0 := by
  unfold rd; rw [View.read_writes_eq_canon _ _ _ (cover1C c t x0 x1 x2 xs0 h0 h1).1]
  unfold run1C kernelRun1_C
  dsimp only
  sl_unfold_words
  rw [View.canon_unit_zero hz, View.readCov_unit_zero (S := S4096x512) _ hz]
  simp only [View.readAt_eq_ld, (hs1_0 t).read_unread, (hs1_1 t).read_unread, (hs1_2 t).read_unread, (Memref.isWhole_whole cc1_scratch0).read_unread, View.ld_unit_zero (S := S4096x1024) hz, View.ld_unit_zero (S := S512x1024) hz, View.ld_unit_zero (S := S4096x512) hz]
  rfl

end

end Cert.KernelIdeal.Val1
end
-- ==== Proof.KI.V1Pay.lean ====
import proofs.«405638_j50903952392412_1_alg».proof.Proof.KI.V1Pieces

set_option maxRecDepth 16384

noncomputable section

namespace Cert.KernelIdeal.Val1

open Idealize.ShloMosaic Idealize.ShloMosaic.TcCoe Idealize.ShloMosaic.Tactic
open Idealize.SL.Sem
open Idealize.ShloMosaic.Pipeline (Dat)
open Cert.KernelIdeal Cert.KernelIdeal.Gen Cert.KernelIdeal.Hand
open Idealize.ShloMosaic.ValueIdx

theorem sel_eq {α : Type} (w k : BitVec 32) (a b : α) : Scalar.select (IntOp.cmpi .eq w k) a b = if w = k then a else b := by
  unfold Scalar.select IntOp.cmpi
  by_cases h : w = k
  · subst h; simp
  · have hb : (w == k) = false := beq_eq_false_iff_ne.mpr h
    simp [hb, h]

def chain (w : BitVec 32) : EReal :=
  (Scalar.select (IntOp.cmpi .eq w 15#32) (Ideal.ofBits .f32 0x3F800000#32)
    (Scalar.select (IntOp.cmpi .eq w 14#32) (Ideal.ofBits .f32 0x3F3913B3#32)
    (Scalar.select (IntOp.cmpi .eq w 13#32) (Ideal.ofBits .f32 0x3F1007AB#32)
    (Scalar.select (IntOp.cmpi .eq w 12#32) (Ideal.ofBits .f32 0x3EE1A4B8#32)
    (Scalar.select (IntOp.cmpi .eq w 11#32) (Ideal.ofBits .f32 0x3EAD033A#32)
    (Scalar.select (IntOp.cmpi .eq w 10#32) (Ideal.ofBits .f32 0x3E7C04DD#32)
    (Scalar.select (IntOp.cmpi .eq w 9#32) (Ideal.ofBits .f32 0x3E24CAE3#32)
    (Scalar.select (IntOp.cmpi .eq w 8#32) (Ideal.ofBits .f32 0x3DA2FAFF#32)
    (Scalar.select (IntOp.cmpi .eq w 7#32) (Ideal.ofBits .f32 0x00000000#32)
    (Scalar.select (IntOp.cmpi .eq w 6#32) (Ideal.ofBits .f32 0xBDBA7871#32)
    (Scalar.select (IntOp.cmpi .eq w 5#32) (Ideal.ofBits .f32 0xBE3D353F#32)
    (Scalar.select (IntOp.cmpi .eq w 4#32) (Ideal.ofBits .f32 0xBE91A24D#32)
    (Scalar.select (IntOp.cmpi .eq w 3#32) (Ideal.ofBits .f32 0xBECA32A0#32)
    (Scalar.select (IntOp.cmpi .eq w 2#32) (Ideal.ofBits .f32 0xBF066B30#32)
    (Scalar.select (IntOp.cmpi .eq w 1#32) (Ideal.ofBits .f32 0xBF3239B1#32)
    (Ideal.ofBits .f32 0xBF800000#32))))))))))))))))

theorem chain_eq (w : BitVec 32) : chain w = Cert.Spec.kcode w := by
  unfold chain Cert.Spec.kcode
  simp only [sel_eq]

theorem grp_lt (cc : Fin 1024) : cc.val / 64 < 16 := by have := cc.isLt; omega
theorem rem_lt (cc : Fin 1024) : cc.val % 64 < 64 := Nat.mod_lt _ (by decide)

theorem scl_apply {α : Type} (v : S512x16.Idx → α) (h1 : S512x16.ShapeCasts S512x16x1) (h2 : S512x16x1.ShapeCasts S512x16x1)
    (h3 : S512x16x1.Broadcasts S512x16x64) (h4 : S512x16x64.ShapeCasts S512x1024) (r : Fin 512) (cc : Fin 1024) :
    shapeCast S512x1024 (broadcastTo S512x16x64 (shapeCast S512x16x1 (shapeCast S512x16x1 v h1) h2) h3) h4 (ix2 r cc)
      = v (ix2 r ⟨cc.val / 64, grp_lt cc⟩) := by
  refine (shapeCast_apply _ h4 (ix2 r cc) (ix3 r ⟨cc.val / 64, grp_lt cc⟩ ⟨cc.val % 64, rem_lt cc⟩) ?_).trans ?_
  · rw [Shape.rowMajor_val_three, Shape.rowMajor_val_two]
    show (r.val * 16 + cc.val / 64) * 64 + cc.val % 64 = r.val * 1024 + cc.val
    omega
  refine (broadcastTo_apply _ h3 _ (ix3 r ⟨cc.val / 64, grp_lt cc⟩ (0 : Fin 1)) ?_).trans ?_
  · intro a
    match a with
    | ⟨0, _⟩ => rfl
    | ⟨1, _⟩ => rfl
    | ⟨2, _⟩ => rfl
  rw [shapeCast_self]
  refine (shapeCast_apply v h1 _ (ix2 r ⟨cc.val / 64, grp_lt cc⟩) ?_).trans rfl
  rw [Shape.rowMajor_val_three, Shape.rowMajor_val_two]
  show r.val * 16 + cc.val / 64 = (r.val * 16 + cc.val / 64) * 1 + 0
  omega

theorem truncf_mulf_apply {s : Shape} (a b : FVec Ideal s .f32) (h : FTy.bf16.bits < FTy.f32.bits) (j : s.Idx) :
    truncf .bf16 (mulf a b) h j = a j * b j := rfl

theorem wblk_apply (x1 : Vec Ideal S512x1024 .i32) (v10 : FVec Ideal S512x16 .f32) (r : Fin 512) (cc : Fin 1024) :
    k1_pay6 (F := Ideal) x1 v10 (k1_pay5 (F := Ideal) x1) (ix2 r cc)
      = Cert.Spec.kcode (x1 (ix2 r cc)) * v10 (ix2 r ⟨cc.val / 64, grp_lt cc⟩) := by
  unfold k1_pay6 k1_pay5
  refine (truncf_mulf_apply _ _ _ _).trans ?_
  refine congrArg₂ (· * ·) ?_ ?_
  · exact chain_eq (x1 (ix2 r cc))
  · exact scl_apply v10 _ _ _ _ r cc

abbrev ce : dot_S4096x1024_S512x1024_S4096x512_1_1_0_0_n_n.contr.Idx ≃ Fin 1024 := contrEquiv1 dot_S4096x1024_S512x1024_S4096x512_1_1_0_0_n_n 1024 rfl rfl

theorem lhs0 (j : S4096x512.Idx) (k : dot_S4096x1024_S512x1024_S4096x512_1_1_0_0_n_n.contr.Idx) : (dot_S4096x1024_S512x1024_S4096x512_1_1_0_0_n_n.lhsIdx j k 0).val = (j 0).val := by
  simp [DotDims.lhsIdx, dot_S4096x1024_S512x1024_S4096x512_1_1_0_0_n_n]; rfl

theorem lhs1 (j : S4096x512.Idx) (k : dot_S4096x1024_S512x1024_S4096x512_1_1_0_0_n_n.contr.Idx) : (dot_S4096x1024_S512x1024_S4096x512_1_1_0_0_n_n.lhsIdx j k 1).val = (k ⟨0, by decide⟩).val :=
  dot_S4096x1024_S512x1024_S4096x512_1_1_0_0_n_n.lhsIdx_val_of_single rfl j k

theorem rhs0 (j : S4096x512.Idx) (k : dot_S4096x1024_S512x1024_S4096x512_1_1_0_0_n_n.contr.Idx) : (dot_S4096x1024_S512x1024_S4096x512_1_1_0_0_n_n.rhsIdx j k 0).val = (j 1).val := by
  simp [DotDims.rhsIdx, dot_S4096x1024_S512x1024_S4096x512_1_1_0_0_n_n]; rfl

theorem rhs1 (j : S4096x512.Idx) (k : dot_S4096x1024_S512x1024_S4096x512_1_1_0_0_n_n.contr.Idx) : (dot_S4096x1024_S512x1024_S4096x512_1_1_0_0_n_n.rhsIdx j k 1).val = (k ⟨0, by decide⟩).val :=
  dot_S4096x1024_S512x1024_S4096x512_1_1_0_0_n_n.rhsIdx_val_of_single rfl j k

theorem mm_apply (a : FVec Ideal S4096x1024 .bf16) (b : FVec Ideal S512x1024 .bf16) (nn : Fin 4096) (r : Fin 512) :
    FloatOps.matmul dot_S4096x1024_S512x1024_S4096x512_1_1_0_0_n_n none a b (constant S4096x512 .f32 0x00000000#32) (ix2 nn r)
      = ∑ cc : Fin 1024, a (ix2 nn cc) * b (ix2 r cc) := by
  rw [Ideal.matmul_constant_zero_apply, ← Equiv.sum_comp ce.symm]
  refine Finset.sum_congr rfl fun cc _ => ?_
  have c2 : ((ce.symm cc) ⟨0, by decide⟩ : ℕ) = cc.val := contrEquiv1_symm_val dot_S4096x1024_S512x1024_S4096x512_1_1_0_0_n_n 1024 rfl rfl cc
  have l : dot_S4096x1024_S512x1024_S4096x512_1_1_0_0_n_n.lhsIdx (ix2 nn r) (ce.symm cc) = ix2 nn cc :=
    Shape.idx_ext₂ (lhs0 _ _) ((lhs1 _ _).trans c2)
  have rr : dot_S4096x1024_S512x1024_S4096x512_1_1_0_0_n_n.rhsIdx (ix2 nn r) (ce.symm cc) = ix2 r cc :=
    Shape.idx_ext₂ (rhs0 _ _) ((rhs1 _ _).trans c2)
  rw [l, rr]

theorem step1_apply (i : grid1.Coords) (x0 : Vec Ideal S4096x1024 .bf16) (x1 : Vec Ideal S512x1024 .i32) (x2 : Vec Ideal S512x224 .f32)
    (acc : Vec Ideal S4096x512 .f32) (nn : Fin 4096) (r : Fin 512) :
    step1 (F := Ideal) i x0 x1 x2 acc (ix2 nn r)
      = acc (ix2 nn r) + ∑ cc : Fin 1024, x0 (ix2 nn cc) * (Cert.Spec.kcode (x1 (ix2 r cc)) * sclBlk (F := Ideal) i x2 (ix2 r ⟨cc.val / 64, grp_lt cc⟩)) := by
  unfold step1 k1_pay1 k1_pay3 k1_pay4
  simp only [shapeCast_self]
  exact congrArg (acc (ix2 nn r) + ·) ((mm_apply _ _ nn r).trans
    (Finset.sum_congr rfl fun cc _ => congrArg (x0 (ix2 nn cc) * ·) (wblk_apply x1 _ r cc)))

theorem zero_apply (j : S4096x512.Idx) : k1_pay2 (F := Ideal) j = 0 := by
  unfold k1_pay2
  simp only [shapeCast_self]
  exact Ideal.ofBits_zero_f32

end Cert.KernelIdeal.Val1
end
-- ==== Proof.KI.V1Win.lean ====
import proofs.«405638_j50903952392412_1_alg».proof.Proof.KI.V1Pay

set_option maxRecDepth 16384

noncomputable section

namespace Cert.KernelIdeal.Val1

open Idealize.ShloMosaic Idealize.ShloMosaic.TcCoe Idealize.ShloMosaic.Tactic
open Idealize.SL.Sem
open Idealize.ShloMosaic.Pipeline (Dat)
open Cert.KernelIdeal Cert.KernelIdeal.Gen Cert.KernelIdeal.Hand
open Idealize.ShloMosaic.ValueIdx

variable {F : FTy → Type} [FloatOps F]
variable (V : (c : Dev nD) → (b : Ref sig .tc) → Buf (Elt F) ((c : Thread nD τ).loc b))

abbrev harr (c : Dev nD) : Vec F S4096x14336 .bf16 := V c main_v5
abbrev qarr (c : Dev nD) : Vec F S4096x14336 .i32 := V c main_arg5
abbrev sarr (c : Dev nD) : Vec F S4096x224 .f32 := V c main_v4

abbrev xblk (c : Dev nD) (t : Fin cfg1.N) : Vec F S4096x1024 .bf16 := iblk1 V c 0 t
abbrev qblk (c : Dev nD) (t : Fin cfg1.N) : Vec F S512x1024 .i32 := iblk1 V c 1 t
abbrev sblk (c : Dev nD) (t : Fin cfg1.N) : Vec F S512x224 .f32 := iblk1 V c 2 t

theorem tN (t : Fin cfg1.N) : t.val < 112 := lt_of_lt_of_eq t.isLt (show cfg1.N = 112 from N_1)

theorem idx1_0 : ∀ t : Fin cfg1.N, win1_0.index t 0 = 0 ∧ win1_0.index t 1 = t.val % 14 :=
  (by decide +kernel : ∀ t : Fin grid1.N, win1_0.index t 0 = 0 ∧ win1_0.index t 1 = t.val % 14)
theorem idx1_1 : ∀ t : Fin cfg1.N, win1_1.index t 0 = t.val / 14 ∧ win1_1.index t 1 = t.val % 14 :=
  (by decide +kernel : ∀ t : Fin grid1.N, win1_1.index t 0 = t.val / 14 ∧ win1_1.index t 1 = t.val % 14)
theorem idx1_2 : ∀ t : Fin cfg1.N, win1_2.index t 0 = t.val / 14 ∧ win1_2.index t 1 = 0 :=
  (by decide +kernel : ∀ t : Fin grid1.N, win1_2.index t 0 = t.val / 14 ∧ win1_2.index t 1 = 0)
theorem off1 : ∀ t : Fin cfg1.N, k1_off1 (grid1.coords t) 0 = 0 ∧ k1_off1 (grid1.coords t) 1 = t.val % 14 * 16 :=
  (by decide +kernel : ∀ t : Fin grid1.N, k1_off1 (grid1.coords t) 0 = 0 ∧ k1_off1 (grid1.coords t) 1 = t.val % 14 * 16)

theorem col_lt (t : Fin cfg1.N) (cc : Fin 1024) : t.val % 14 * 1024 + cc.val < 14336 := by
  have := cc.isLt; have := Nat.mod_lt t.val (show 0 < 14 by decide); omega
theorem row_lt (t : Fin cfg1.N) (r : Fin 512) : t.val / 14 * 512 + r.val < 4096 := by
  have := r.isLt; have := tN t; omega
theorem scol_lt (t : Fin cfg1.N) (g : Fin 16) : t.val % 14 * 16 + g.val < 224 := by
  have := g.isLt; have := Nat.mod_lt t.val (show 0 < 14 by decide); omega

theorem xblk_apply (c : Dev nD) (t : Fin cfg1.N) (nn : Fin 4096) (cc : Fin 1024) :
    xblk V c t (ix2 nn cc) = harr V c (ix2 nn ⟨t.val % 14 * 1024 + cc.val, col_lt t cc⟩) := by
  have hi := idx1_0 t
  unfold xblk iblk1
  rw [View.read_apply]
  show V c main_v5 _ = V c main_v5 _
  congr 1
  funext a
  apply Fin.ext
  match a with
  | ⟨0, _⟩ => show win1_0.index t 0 * 4096 + 1 * nn.val = nn.val; rw [hi.1]; omega
  | ⟨1, _⟩ => show win1_0.index t 1 * 1024 + 1 * cc.val = t.val % 14 * 1024 + cc.val; rw [hi.2]; omega

theorem qblk_apply (c : Dev nD) (t : Fin cfg1.N) (r : Fin 512) (cc : Fin 1024) :
    qblk V c t (ix2 r cc) = qarr V c (ix2 ⟨t.val / 14 * 512 + r.val, row_lt t r⟩ ⟨t.val % 14 * 1024 + cc.val, col_lt t cc⟩) := by
  have hi := idx1_1 t
  unfold qblk iblk1
  rw [View.read_apply]
  show V c main_arg5 _ = V c main_arg5 _
  congr 1
  funext a
  apply Fin.ext
  match a with
  | ⟨0, _⟩ => show win1_1.index t 0 * 512 + 1 * r.val = t.val / 14 * 512 + r.val; rw [hi.1]; omega
  | ⟨1, _⟩ => show win1_1.index t 1 * 1024 + 1 * cc.val = t.val % 14 * 1024 + cc.val; rw [hi.2]; omega

theorem sblk_apply (c : Dev nD) (t : Fin cfg1.N) (r : Fin 512) (g : Fin 16) :
    sclBlk (grid1.coords t) (sblk V c t) (ix2 r g) = sarr V c (ix2 ⟨t.val / 14 * 512 + r.val, row_lt t r⟩ ⟨t.val % 14 * 16 + g.val, scol_lt t g⟩) := by
  have hi := idx1_2 t
  have ho := off1 t
  unfold sclBlk sblk iblk1 View.ld
  rw [View.read_apply]
  show V c main_v4 _ = V c main_v4 _
  congr 1
  funext a
  apply Fin.ext
  match a with
  | ⟨0, _⟩ => show win1_2.index t 0 * 512 + 1 * (k1_off1 (grid1.coords t) 0 + 1 * r.val) = t.val / 14 * 512 + r.val; rw [hi.1, ho.1]; omega
  | ⟨1, _⟩ => show win1_2.index t 1 * 224 + 1 * (k1_off1 (grid1.coords t) 1 + 1 * g.val) = t.val % 14 * 16 + g.val; rw [hi.2, ho.2]; omega

end Cert.KernelIdeal.Val1
end
-- ==== Proof.KI.V1Inv.lean ====
import proofs.«405638_j50903952392412_1_alg».proof.Proof.KI.V1Win
import Mathlib.Algebra.BigOperators.Intervals

set_option maxRecDepth 16384

noncomputable section

namespace Cert.KernelIdeal.Val1

open Idealize.ShloMosaic Idealize.ShloMosaic.TcCoe Idealize.ShloMosaic.Tactic
open Idealize.SL.Sem
open Idealize.ShloMosaic.Pipeline (Dat)
open Cert.KernelIdeal Cert.KernelIdeal.Gen Cert.KernelIdeal.Hand
open Idealize.ShloMosaic.ValueIdx

section AnyValues
variable {F : FTy → Type} [FloatOps F]
variable (V : (c : Dev nD) → (b : Ref sig .tc) → Buf (Elt F) ((c : Thread nD τ).loc b))

theorem accA (c : Dev nD) (t : Fin cfg1.N) (h0 : t.val % 14 = 0) (h1 : ¬t.val % 14 = 13) :
    (outsAt1 V c t.val t.isLt).2 = step1 (grid1.coords t) (xblk V c t) (qblk V c t) (sblk V c t) k1_pay2 := by
  rw [outsAt1_A V c t h0 h1]; dsimp only [out1A, R1A]
  exact pieceA c t (iblk1 V c 0 t) (iblk1 V c 1 t) (iblk1 V c 2 t) h0 h1

theorem accB (c : Dev nD) (t : Fin cfg1.N) (h0 : ¬t.val % 14 = 0) (h1 : ¬t.val % 14 = 13) :
    (outsAt1 V c t.val t.isLt).2 = step1 (grid1.coords t) (xblk V c t) (qblk V c t) (sblk V c t) (outsAt1 V c (t.val - 1) (Nat.lt_of_le_of_lt (Nat.sub_le _ _) t.isLt)).2 := by
  rw [outsAt1_B V c t h0 h1]; dsimp only [out1B, R1B]
  exact pieceB c t (iblk1 V c 0 t) (iblk1 V c 1 t) (iblk1 V c 2 t) _ h0 h1

theorem accC (c : Dev nD) (t : Fin cfg1.N) (h0 : ¬t.val % 14 = 0) (h1 : t.val % 14 = 13) :
    (outsAt1 V c t.val t.isLt).2 = step1 (grid1.coords t) (xblk V c t) (qblk V c t) (sblk V c t) (outsAt1 V c (t.val - 1) (Nat.lt_of_le_of_lt (Nat.sub_le _ _) t.isLt)).2 := by
  rw [outsAt1_C V c t h0 h1]; dsimp only [out1C, R1C]
  exact pieceC c t (iblk1 V c 0 t) (iblk1 V c 1 t) (iblk1 V c 2 t) _ h0 h1

theorem outC (c : Dev nD) (t : Fin cfg1.N) (h0 : ¬t.val % 14 = 0) (h1 : t.val % 14 = 13) :
    (outsAt1 V c t.val t.isLt).1 = step1 (grid1.coords t) (xblk V c t) (qblk V c t) (sblk V c t) (outsAt1 V c (t.val - 1) (Nat.lt_of_le_of_lt (Nat.sub_le _ _) t.isLt)).2 := by
  rw [outsAt1_C V c t h0 h1]; dsimp only [out1C, R1C]
  exact pieceCo c t (iblk1 V c 0 t) (iblk1 V c 1 t) (iblk1 V c 2 t) _ h0 h1

end AnyValues

theorem acc_step (f : ℕ → EReal) (k : ℕ) (a : EReal) (h : a = ∑ m ∈ Finset.range (k * 1024), f m) :
    a + ∑ cc : Fin 1024, f (k * 1024 + cc.val) = ∑ m ∈ Finset.range ((k + 1) * 1024), f m := by
  rw [h, Nat.add_mul, Nat.one_mul, Finset.sum_range_add, Finset.sum_range (fun x => f (k * 1024 + x))]

variable (V : (c : Dev nD) → (b : Ref sig .tc) → Buf (Elt Ideal) ((c : Thread nD τ).loc b))

def term (c : Dev nD) (nn d : Fin 4096) (m : ℕ) : EReal :=
  if h : m < 14336 then harr V c (ix2 nn ⟨m, h⟩) * Cert.Spec.kwgt (qarr V c) (sarr V c) Cert.Spec.g224 d ⟨m, h⟩ else 0

theorem full_sum (c : Dev nD) (nn d : Fin 4096) :
    ∑ m ∈ Finset.range 14336, term V c nn d m
      = ∑ mm : Fin 14336, harr V c (ix2 nn mm) * Cert.Spec.kwgt (qarr V c) (sarr V c) Cert.Spec.g224 d mm := by
  rw [Finset.sum_range]
  refine Finset.sum_congr rfl fun mm _ => ?_
  unfold term
  rw [dif_pos mm.isLt]

theorem blocksum (c : Dev nD) (t : Fin cfg1.N) (nn : Fin 4096) (r : Fin 512) (d : Fin 4096) (hd : d.val = t.val / 14 * 512 + r.val) :
    ∑ cc : Fin 1024, xblk V c t (ix2 nn cc) * (Cert.Spec.kcode (qblk V c t (ix2 r cc)) * sclBlk (F := Ideal) (grid1.coords t) (sblk V c t) (ix2 r ⟨cc.val / 64, grp_lt cc⟩))
      = ∑ cc : Fin 1024, term V c nn d (t.val % 14 * 1024 + cc.val) := by
  refine Finset.sum_congr rfl fun cc _ => ?_
  have hd' : d = ⟨t.val / 14 * 512 + r.val, row_lt t r⟩ := Fin.ext hd
  subst hd'
  rw [xblk_apply, qblk_apply, sblk_apply]
  unfold term
  rw [dif_pos (col_lt t cc)]
  unfold Cert.Spec.kwgt
  have hg : (⟨t.val % 14 * 16 + cc.val / 64, scol_lt t ⟨cc.val / 64, grp_lt cc⟩⟩ : Fin 224)
      = ⟨(t.val % 14 * 1024 + cc.val) / 64, Cert.Spec.g224 ⟨t.val % 14 * 1024 + cc.val, col_lt t cc⟩⟩ := Fin.ext (by show t.val % 14 * 16 + cc.val / 64 = (t.val % 14 * 1024 + cc.val) / 64; omega)
  rw [hg]

theorem acc_eq (c : Dev nD) (n : ℕ) : ∀ (hn : n < cfg1.N) (nn : Fin 4096) (r : Fin 512) (d : Fin 4096), d.val = n / 14 * 512 + r.val →
    (outsAt1 V c n hn).2 (ix2 nn r) = ∑ m ∈ Finset.range ((n % 14 + 1) * 1024), term V c nn d m := by
  induction n with
  | zero =>
    intro hn nn r d hd
    refine (congrFun (accA V c ⟨0, hn⟩ rfl (by show ¬(0 : ℕ) % 14 = 13; decide)) (ix2 nn r)).trans ?_
    refine (step1_apply _ _ _ _ _ nn r).trans ?_
    refine (congrArg (k1_pay2 (F := Ideal) (ix2 nn r) + ·) (blocksum V c ⟨0, hn⟩ nn r d hd)).trans ?_
    exact acc_step (term V c nn d) 0 _ (by rw [zero_apply]; simp)
  | succ n ih =>
    intro hn nn r d hd
    by_cases h0 : (n + 1) % 14 = 0
    · have h1 : ¬(n + 1) % 14 = 13 := by omega
      refine (congrFun (accA V c ⟨n + 1, hn⟩ h0 h1) (ix2 nn r)).trans ?_
      refine (step1_apply _ _ _ _ _ nn r).trans ?_
      refine (congrArg (k1_pay2 (F := Ideal) (ix2 nn r) + ·) (blocksum V c ⟨n + 1, hn⟩ nn r d hd)).trans ?_
      exact acc_step (term V c nn d) ((n + 1) % 14) _ (by rw [zero_apply, h0]; simp)
    · have hk : n % 14 + 1 = (n + 1) % 14 := by omega
      have hd' : d.val = n / 14 * 512 + r.val := by rw [hd]; congr 2; omega
      have hprev := ih (Nat.lt_of_succ_lt hn) nn r d hd'
      rw [hk] at hprev
      by_cases h1 : (n + 1) % 14 = 13
      · refine (congrFun (accC V c ⟨n + 1, hn⟩ h0 h1) (ix2 nn r)).trans ?_
        refine (step1_apply _ _ _ _ _ nn r).trans ?_
        refine (congrArg (_ + ·) (blocksum V c ⟨n + 1, hn⟩ nn r d hd)).trans ?_
        exact acc_step (term V c nn d) ((n + 1) % 14) _ hprev
      · refine (congrFun (accB V c ⟨n + 1, hn⟩ h0 h1) (ix2 nn r)).trans ?_
        refine (step1_apply _ _ _ _ _ nn r).trans ?_
        refine (congrArg (_ + ·) (blocksum V c ⟨n + 1, hn⟩ nn r d hd)).trans ?_
        exact acc_step (term V c nn d) ((n + 1) % 14) _ hprev

theorem out_eq (c : Dev nD) (t : Fin cfg1.N) (h1 : t.val % 14 = 13) (nn : Fin 4096) (r : Fin 512) (d : Fin 4096)
    (hd : d.val = t.val / 14 * 512 + r.val) :
    (outsAt1 V c t.val t.isLt).1 (ix2 nn r)
      = ∑ mm : Fin 14336, harr V c (ix2 nn mm) * Cert.Spec.kwgt (qarr V c) (sarr V c) Cert.Spec.g224 d mm := by
  have h0 : ¬t.val % 14 = 0 := by omega
  have e : (outsAt1 V c t.val t.isLt).1 = (outsAt1 V c t.val t.isLt).2 := (outC V c t h0 h1).trans (accC V c t h0 h1).symm
  rw [e, acc_eq V c t.val t.isLt nn r d hd, h1]
  exact full_sum V c nn d

end Cert.KernelIdeal.Val1
end
-- ==== Proof.KI.Value1.lean ====
import proofs.«405638_j50903952392412_1_alg».proof.Proof.KI.V1Inv

set_option maxRecDepth 16384

noncomputable section

namespace Cert.KernelIdeal.Val1

open Idealize.ShloMosaic Idealize.ShloMosaic.TcCoe Idealize.ShloMosaic.Tactic
open Idealize.SL.Sem
open Idealize.ShloMosaic.Pipeline (Dat)
open Cert.KernelIdeal Cert.KernelIdeal.Gen Cert.KernelIdeal.Hand
open Idealize.ShloMosaic.ValueIdx

variable (V : (c : Dev nD) → (b : Ref sig .tc) → Buf (Elt Ideal) ((c : Thread nD τ).loc b))

def resultAt (c : Dev nD) (n d : Fin 4096) : EReal :=
  ∑ mm : Fin 14336, harr V c (ix2 n mm) * Cert.Spec.kwgt (qarr V c) (sarr V c) Cert.Spec.g224 d mm

def result (c : Dev nD) : Vec Ideal S4096x4096 .f32 := fun i => resultAt V c (i 0) (i 1)

theorem idx1_3 : ∀ t : Fin cfg1.N, win1_3.index t 0 = 0 ∧ win1_3.index t 1 = t.val / 14 :=
  (by decide +kernel : ∀ t : Fin grid1.N, win1_3.index t 0 = 0 ∧ win1_3.index t 1 = t.val / 14)

theorem flushed_eq (c : Dev nD) (t : Fin cfg1.N) (hf : (cfg1.win 3).flush t = true) :
    (dat1 V c).flushed 3 t = ((cfg1.win 3).blk t).view.read (Elt Ideal) (result V c) := by
  have h13 : t.val % 14 = 13 := (flush1_3 t).mp hf
  have hi := idx1_3 t
  show (cfg1.win 3).cut (grid1.coords t) ((dat1 V c).after 3 t) = _
  rw [after1_3]
  refine funext fun (j : S4096x512.Idx) => ?_
  obtain ⟨nn, r, rfl⟩ : ∃ (nn : Fin 4096) (r : Fin 512), j = ix2 nn r := ⟨j 0, j 1, eq_ix2 j⟩
  rw [View.read_apply]
  have e0 : ((cfg1.win 3).blk t).view.emb (ix2 nn r) = ix2 nn ⟨t.val / 14 * 512 + r.val, row_lt t r⟩ := by
    funext a
    apply Fin.ext
    match a with
    | ⟨0, _⟩ => show win1_3.index t 0 * 4096 + 1 * nn.val = nn.val; rw [hi.1]; omega
    | ⟨1, _⟩ => show win1_3.index t 1 * 512 + 1 * r.val = t.val / 14 * 512 + r.val; rw [hi.2]; omega
  rw [e0]
  show (outsAt1 V c t.val t.isLt).1 (ix2 nn r) = resultAt V c nn ⟨t.val / 14 * 512 + r.val, row_lt t r⟩
  exact out_eq V c t h13 nn r ⟨t.val / 14 * 512 + r.val, row_lt t r⟩ rfl

theorem cover (i : S4096x4096.Idx) : ∃ t : Fin cfg1.N, (cfg1.win 3).flush t = true ∧ i ∈ ((cfg1.win 3).blk t).view.set := by
  have h0 : (i 0 : Nat) < 4096 := (i 0).isLt
  have h1 : (i 1 : Nat) < 4096 := (i 1).isLt
  have hN : cfg1.N = 112 := N_1
  let t : Fin cfg1.N := ⟨(i 1).val / 512 * 14 + 13, by rw [hN]; omega⟩
  have ht : t.val = (i 1).val / 512 * 14 + 13 := rfl
  have hi := idx1_3 t
  refine ⟨t, (flush1_3 t).mpr (by rw [ht]; omega), ?_⟩
  show i ∈ ((View.whole main_v6).slice (win1_3.rect t)).set
  rw [View.set_slice_whole, Rect.mem_set_unit]
  intro a
  match a with
  | ⟨0, _⟩ =>
    show win1_3.index t 0 * 4096 ≤ (i 0 : Nat) ∧ (i 0 : Nat) < win1_3.index t 0 * 4096 + 4096
    rw [hi.1]; omega
  | ⟨1, _⟩ =>
    show win1_3.index t 1 * 512 ≤ (i 1 : Nat) ∧ (i 1 : Nat) < win1_3.index t 1 * 512 + 512
    rw [hi.2, ht]; omega

theorem arr1_eq (c : Dev nD) : (dat1 (F := Ideal) V c).arrAt 3 cfg1.N = result V c :=
  (dat1 V c).arrAt_eq_of_cover 3 (result V c) (flushed_eq V c) cover

abbrev oarr (c : Dev nD) : Vec Ideal S4096x4096 .f32 := (Cert.KernelIdeal.Hand.dat1 (F := Ideal) V c).arrAt 3 cfg1.N

theorem arr1_final (c : Dev nD) (n d : Fin 4096) :
    oarr V c (ix2 n d)
      = ∑ mm : Fin 14336, harr V c (ix2 n mm) * Cert.Spec.kwgt (qarr V c) (sarr V c) Cert.Spec.g224 d mm :=
  congrFun (arr1_eq V c) (ix2 n d)

end Cert.KernelIdeal.Val1
end
-- ==== Proof.KI.Result.lean ====
import proofs.«405638_j50903952392412_1_alg».proof.Proof.KI.Whole
import proofs.«405638_j50903952392412_1_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open scoped BigOperators

namespace Cert.KernelIdeal.Val

open Idealize.ShloMosaic Idealize.ShloMosaic.TcCoe Idealize.ShloMosaic.ValueIdx
open Idealize.SL Idealize.SL.Sem
open Cert.KernelIdeal Cert.KernelIdeal.Gen Cert.KernelIdeal.Hand

variable (m : (ℓ : Loc nD τ sig) → Buf (Elt Ideal) ℓ)

abbrev tokens (c : Dev nD) : S4096x4096.Idx → EReal := V1 m c main_v1

abbrev gateCodes (c : Dev nD) : S14336x4096.Idx → BitVec 32 := V1 m c main_arg1
abbrev gateScales (c : Dev nD) : S14336x64.Idx → EReal := V1 m c main_v2
abbrev upCodes (c : Dev nD) : S14336x4096.Idx → BitVec 32 := V1 m c main_arg3
abbrev upScales (c : Dev nD) : S14336x64.Idx → EReal := V1 m c main_v3

abbrev hiddenLeft (c : Dev nD) : S4096x14336.Idx → EReal := (dat0 (F := Ideal) (V1 m) c).arrAt 5 cfg0.N

abbrev hiddenIn (c : Dev nD) : S4096x14336.Idx → EReal := V2 m c main_v5
abbrev downCodes (c : Dev nD) : S4096x14336.Idx → BitVec 32 := V2 m c main_arg5
abbrev downScales (c : Dev nD) : S4096x224.Idx → EReal := V2 m c main_v4

abbrev outLeft (c : Dev nD) : S4096x4096.Idx → EReal := (dat1 (F := Ideal) (V2 m) c).arrAt 3 cfg1.N

theorem V1_main_v1 (c : Dev nD) (n : Fin 4096) (b : Fin 2) (s : Fin 2048) (hn : n.val = b.val * 2048 + s.val) (h : Fin 4096) :
    (V1 m c main_v1 : S4096x4096.Idx → EReal) (ix2 n h) = (m ((c.tc : Thread nD τ).loc main_arg0) : S2x2048x4096.Idx → EReal) (ix3 b s h) := by
  have e : @Eq (S4096x4096.Idx → EReal) (V1 m c main_v1)
      (truncf (F := Ideal) .bf16 (shapeCast S4096x4096 (m ((c.tc : Thread nD τ).loc main_arg0) : S2x2048x4096.Idx → EReal) shapeCasts_S2x2048x4096_S4096x4096) bitsLt_bf16_f32) := by
    dsimp only [V1, W1, W0, hostOps0]; after_results; rfl
  rw [e, truncf_apply]
  refine shapeCast_apply _ _ _ _ ?_
  show (S2x2048x4096.rowMajor (ix3 b s h)).val = (S4096x4096.rowMajor (ix2 n h)).val
  rw [Shape.rowMajor_val_three, Shape.rowMajor_val_two]
  show (b.val * 2048 + s.val) * 4096 + h.val = n.val * 4096 + h.val
  rw [hn]

theorem V1_main_v2 (c : Dev nD) (r : Fin 14336) (g : Fin 64) (p : Fin 917504) (hp : p.val = r.val * 64 + g.val) :
    (V1 m c main_v2 : S14336x64.Idx → EReal) (ix2 r g) = (m ((c.tc : Thread nD τ).loc main_arg2) : S917504.Idx → EReal) (ix1 p) := by
  have e : @Eq (S14336x64.Idx → EReal) (V1 m c main_v2)
      (shapeCast S14336x64 (m ((c.tc : Thread nD τ).loc main_arg2) : S917504.Idx → EReal) shapeCasts_S917504_S14336x64) := by
    dsimp only [V1, W1, W0, hostOps0]; after_results; rfl
  rw [e]
  refine shapeCast_apply _ _ _ _ ?_
  show (S917504.rowMajor (ix1 p)).val = (S14336x64.rowMajor (ix2 r g)).val
  rw [Shape.rowMajor_val_one, Shape.rowMajor_val_two]
  exact hp

theorem V1_main_v3 (c : Dev nD) (r : Fin 14336) (g : Fin 64) (p : Fin 917504) (hp : p.val = r.val * 64 + g.val) :
    (V1 m c main_v3 : S14336x64.Idx → EReal) (ix2 r g) = (m ((c.tc : Thread nD τ).loc main_arg4) : S917504.Idx → EReal) (ix1 p) := by
  have e : @Eq (S14336x64.Idx → EReal) (V1 m c main_v3)
      (shapeCast S14336x64 (m ((c.tc : Thread nD τ).loc main_arg4) : S917504.Idx → EReal) shapeCasts_S917504_S14336x64) := by
    dsimp only [V1, W1, W0, hostOps0]; after_results; rfl
  rw [e]
  refine shapeCast_apply _ _ _ _ ?_
  show (S917504.rowMajor (ix1 p)).val = (S14336x64.rowMajor (ix2 r g)).val
  rw [Shape.rowMajor_val_one, Shape.rowMajor_val_two]
  exact hp

theorem V1_main_v4 (c : Dev nD) (r : Fin 4096) (g : Fin 224) (p : Fin 917504) (hp : p.val = r.val * 224 + g.val) :
    (V1 m c main_v4 : S4096x224.Idx → EReal) (ix2 r g) = (m ((c.tc : Thread nD τ).loc main_arg6) : S917504.Idx → EReal) (ix1 p) := by
  have e : @Eq (S4096x224.Idx → EReal) (V1 m c main_v4)
      (shapeCast S4096x224 (m ((c.tc : Thread nD τ).loc main_arg6) : S917504.Idx → EReal) shapeCasts_S917504_S4096x224) := by
    dsimp only [V1, W1, W0, hostOps0]; after_results; rfl
  rw [e]
  refine shapeCast_apply _ _ _ _ ?_
  show (S917504.rowMajor (ix1 p)).val = (S4096x224.rowMajor (ix2 r g)).val
  rw [Shape.rowMajor_val_one, Shape.rowMajor_val_two]
  exact hp

theorem V1_main_arg1 (c : Dev nD) : V1 m c main_arg1 = m ((c.tc : Thread nD τ).loc main_arg1) := by
  dsimp only [V1, W1, W0, hostOps0]; after_results
theorem V1_main_arg3 (c : Dev nD) : V1 m c main_arg3 = m ((c.tc : Thread nD τ).loc main_arg3) := by
  dsimp only [V1, W1, W0, hostOps0]; after_results
theorem V1_main_arg5 (c : Dev nD) : V1 m c main_arg5 = m ((c.tc : Thread nD τ).loc main_arg5) := by
  dsimp only [V1, W1, W0, hostOps0]; after_results

theorem kwgt_up (q : S14336x4096.Idx → BitVec 32) (a2 : S14336x64.Idx → EReal) (a : S917504.Idx → EReal)
    (ha : ∀ (r : Fin 14336) (g : Fin 64) (p : Fin 917504), p.val = r.val * 64 + g.val → a2 (ix2 r g) = a (ix1 p))
    (hq : ∀ i, Cert.Spec.InRange (q i)) (r : Fin 14336) (c : Fin 4096) :
    Cert.Spec.kwgt q a2 Cert.Spec.g64 r c = Cert.Spec.wUp q a r c := by
  unfold Cert.Spec.kwgt Cert.Spec.wUp Cert.Spec.wgt
  rw [Cert.Spec.kcode_eq_code (hq _),
    ha r ⟨c.val / 64, Cert.Spec.g64 c⟩ ⟨r.val * (4096 / 64) + c.val / 64, Cert.Spec.blk_gate r c⟩ rfl]

theorem kwgt_down (q : S4096x14336.Idx → BitVec 32) (a2 : S4096x224.Idx → EReal) (a : S917504.Idx → EReal)
    (ha : ∀ (r : Fin 4096) (g : Fin 224) (p : Fin 917504), p.val = r.val * 224 + g.val → a2 (ix2 r g) = a (ix1 p))
    (hq : ∀ i, Cert.Spec.InRange (q i)) (r : Fin 4096) (c : Fin 14336) :
    Cert.Spec.kwgt q a2 Cert.Spec.g224 r c = Cert.Spec.wDown q a r c := by
  unfold Cert.Spec.kwgt Cert.Spec.wDown Cert.Spec.wgt
  rw [Cert.Spec.kcode_eq_code (hq _),
    ha r ⟨c.val / 64, Cert.Spec.g224 c⟩ ⟨r.val * (14336 / 64) + c.val / 64, Cert.Spec.blk_down r c⟩ rfl]

theorem V2_main_v5 (c : Dev nD) : V2 m c main_v5 = (dat0 (F := Ideal) (V1 m) c).arrAt 5 cfg0.N := W2_arr m c 5

theorem V2_main_v4 (c : Dev nD) : V2 m c main_v4 = V1 m c main_v4 := W2_of_ne m c main_v4 (by decide)

theorem V2_main_arg5 (c : Dev nD) : V2 m c main_arg5 = m ((c.tc : Thread nD τ).loc main_arg5) :=
  (W2_of_ne m c main_arg5 (by decide)).trans (V1_main_arg5 m c)

theorem W3_main_v6 (c : Dev nD) : W3 m c (Proc.devRef .tc main_v6) = (dat1 (F := Ideal) (V2 m) c).arrAt 3 cfg1.N := W3_arr m c 3

theorem W4_main_v7 (c : Dev nD) (b : Fin 2) (s : Fin 2048) (d : Fin 4096) (n : Fin 4096) (hn : n.val = b.val * 2048 + s.val) :
    (W4 m c (Proc.devRef .tc main_v7) : S2x2048x4096.Idx → EReal) (ix3 b s d)
      = (W3 m c (Proc.devRef .tc main_v6) : S4096x4096.Idx → EReal) (ix2 n d) := by
  have e : @Eq (S2x2048x4096.Idx → EReal) (W4 m c (Proc.devRef .tc main_v7))
      (shapeCast S2x2048x4096 (W3 m c (Proc.devRef .tc main_v6) : S4096x4096.Idx → EReal) shapeCasts_S4096x4096_S2x2048x4096) := by
    dsimp only [W4, hostOps2]; after_results; rfl
  rw [e]
  refine shapeCast_apply _ _ _ _ ?_
  show (S4096x4096.rowMajor (ix2 n d)).val = (S2x2048x4096.rowMajor (ix3 b s d)).val
  rw [Shape.rowMajor_val_three, Shape.rowMajor_val_two]
  show n.val * 4096 + d.val = (b.val * 2048 + s.val) * 4096 + d.val
  rw [hn]

theorem result_eq_of (c : Dev nD)
    (hA0 : ∀ (n : Fin 4096) (mm : Fin 14336), hiddenLeft m c (ix2 n mm)
        = Cert.Spec.act (∑ h : Fin 4096, tokens m c (ix2 n h) * Cert.Spec.kwgt (gateCodes m c) (gateScales m c) Cert.Spec.g64 mm h)
                        (∑ h : Fin 4096, tokens m c (ix2 n h) * Cert.Spec.kwgt (upCodes m c) (upScales m c) Cert.Spec.g64 mm h))
    (hA1 : ∀ (n d : Fin 4096), outLeft m c (ix2 n d)
        = ∑ mm : Fin 14336, hiddenIn m c (ix2 n mm) * Cert.Spec.kwgt (downCodes m c) (downScales m c) Cert.Spec.g224 d mm)
    (hg : ∀ i, Cert.Spec.InRange ((m ((c.tc : Thread nD τ).loc main_arg1)) i)) (hu : ∀ i, Cert.Spec.InRange ((m ((c.tc : Thread nD τ).loc main_arg3)) i)) (hd : ∀ i, Cert.Spec.InRange ((m ((c.tc : Thread nD τ).loc main_arg5)) i)) :
    (W4 m c (Proc.devRef .tc main_v7) : S2x2048x4096.Idx → EReal)
      = Cert.Spec.mlp (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  funext i
  obtain ⟨b, s, d, rfl⟩ : ∃ (b : Fin 2) (s : Fin 2048) (d : Fin 4096), i = ix3 b s d := ⟨i 0, i 1, i 2, eq_ix3 i⟩
  have hb := b.isLt; have hs := s.isLt
  obtain ⟨n, hn⟩ : ∃ n : Fin 4096, n.val = b.val * 2048 + s.val := ⟨⟨b.val * 2048 + s.val, by omega⟩, rfl⟩
  have e1 : (W4 m c (Proc.devRef .tc main_v7) : S2x2048x4096.Idx → EReal) (ix3 b s d) = outLeft m c (ix2 n d) :=
    (W4_main_v7 m c b s d n hn).trans (congrFun (W3_main_v6 m c) (ix2 n d))
  rw [e1, hA1]
  show _ = ∑ mm : Fin 14336, Cert.Spec.hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) b s mm * Cert.Spec.wDown (m ((c.tc : Thread nD τ).loc main_arg5)) (m ((c.tc : Thread nD τ).loc main_arg6)) d mm
  refine Finset.sum_congr rfl fun mm _ => ?_
  have e2 : hiddenIn m c (ix2 n mm) = Cert.Spec.hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) b s mm := by
    have e : hiddenIn m c = hiddenLeft m c := V2_main_v5 m c
    rw [e, hA0]
    unfold Cert.Spec.hidden Cert.Spec.proj
    have eg : gateCodes m c = (m ((c.tc : Thread nD τ).loc main_arg1)) := V1_main_arg1 m c
    have eu : upCodes m c = (m ((c.tc : Thread nD τ).loc main_arg3)) := V1_main_arg3 m c
    congr 1
    · refine Finset.sum_congr rfl fun h _ => ?_
      have t : tokens m c (ix2 n h) = (m ((c.tc : Thread nD τ).loc main_arg0)) (ix3 b s h) := V1_main_v1 m c n b s hn h
      rw [t, eg]
      exact congrArg _ (kwgt_up _ _ _ (fun r g p hp => V1_main_v2 m c r g p hp) hg mm h)
    · refine Finset.sum_congr rfl fun h _ => ?_
      have t : tokens m c (ix2 n h) = (m ((c.tc : Thread nD τ).loc main_arg0)) (ix3 b s h) := V1_main_v1 m c n b s hn h
      rw [t, eu]
      exact congrArg _ (kwgt_up _ _ _ (fun r g p hp => V1_main_v3 m c r g p hp) hu mm h)
  have e3 : Cert.Spec.kwgt (downCodes m c) (downScales m c) Cert.Spec.g224 d mm = Cert.Spec.wDown (m ((c.tc : Thread nD τ).loc main_arg5)) (m ((c.tc : Thread nD τ).loc main_arg6)) d mm := by
    have ed : downCodes m c = (m ((c.tc : Thread nD τ).loc main_arg5)) := V2_main_arg5 m c
    rw [ed]
    exact kwgt_down _ _ _ (fun r g p hp => (congrFun (V2_main_v4 m c) (ix2 r g)).trans (V1_main_v4 m c r g p hp)) hd d mm
  rw [e2, e3]

end Cert.KernelIdeal.Val

end
-- ==== Proof.Ref.Run.lean ====
import proofs.«405638_j50903952392412_1_alg».proof.Proof.Gen.ReferenceIdeal
import Idealize.ShloMosaic.Lib.StableHlo.Run
import Idealize.ShloMosaic.PureOps.Ideal

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

def table : FVec F S16 .f32 := fun i => FloatOps.ofBits .f32 (lit0 (S16.rowMajor i))

def wrapCodes (q : IVec S58720256 32) : IVec S58720256 32 :=
  select (cmpi .slt q (broadcastInDim S58720256 ![] bcast_S_S58720256 (constantI S_ 32 0#32)))
    (addi q (broadcastInDim S58720256 ![] bcast_S_S58720256 (constantI S_ 32 16#32))) q

def decode (q : IVec S58720256 32) : FVec F S58720256 .f32 :=
  Host.gather gather_S16_S58720256x1_S58720256_n_0_n_n_0_1_1 (table (F := F))
    (broadcastInDim S58720256x1 ![0] bcast_S58720256_S58720256x1_0 (wrapCodes q))

def scaled (q : IVec S58720256 32) (a : FVec F S917504 .f32) : FVec F S917504x64 .f32 :=
  mulf (shapeCast S917504x64 (decode (F := F) q) shapeCasts_S58720256_S917504x64)
    (broadcastInDim S917504x64 ![0, 1] bcast_S917504x1_S917504x64_0_1
      (broadcastInDim S917504x1 ![0] bcast_S917504_S917504x1_0 a))

def wUpMat (q : IVec S14336x4096 32) (a : FVec F S917504 .f32) : FVec F S14336x4096 .f32 :=
  shapeCast S14336x4096 (scaled (shapeCast S58720256 q shapeCasts_S14336x4096_S58720256) a) shapeCasts_S917504x64_S14336x4096

def wDownMat (q : IVec S4096x14336 32) (a : FVec F S917504 .f32) : FVec F S4096x14336 .f32 :=
  shapeCast S4096x14336 (scaled (shapeCast S58720256 q shapeCasts_S4096x14336_S58720256) a) shapeCasts_S917504x64_S4096x14336

def siluTerm (g : FVec F S2x2048x14336 .f32) : FVec F S2x2048x14336 .f32 :=
  mulf g (Host.divf (broadcastInDim S2x2048x14336 ![] bcast_S_S2x2048x14336 (constant S_ .f32 0x3F800000#32))
    (addf (broadcastInDim S2x2048x14336 ![] bcast_S_S2x2048x14336 (constant S_ .f32 0x3F800000#32)) (Host.exp (Host.negf g))))

def projUp (x : FVec F S2x2048x4096 .f32) (W : FVec F S14336x4096 .f32) : FVec F S2x2048x14336 .f32 :=
  Host.dotGeneral dot_S2x2048x4096_S14336x4096_S2x2048x14336_2_1_01_0_n_n none x W

def hiddenTerm (x : FVec F S2x2048x4096 .f32) (gq : IVec S14336x4096 32) (ga : FVec F S917504 .f32)
    (uq : IVec S14336x4096 32) (ua : FVec F S917504 .f32) : FVec F S2x2048x14336 .f32 :=
  mulf (siluTerm (projUp x (wUpMat gq ga))) (projUp x (wUpMat uq ua))

def res (x : FVec Ideal S2x2048x4096 .f32) (gq : IVec S14336x4096 32) (ga : FVec Ideal S917504 .f32)
    (uq : IVec S14336x4096 32) (ua : FVec Ideal S917504 .f32) (dq : IVec S4096x14336 32) (da : FVec Ideal S917504 .f32) :
    FVec Ideal S2x2048x4096 .f32 :=
  Host.dotGeneral dot_S2x2048x14336_S4096x14336_S2x2048x4096_2_1_01_0_n_n none (hiddenTerm (F := Ideal) x gq ga uq ua) (wDownMat (F := Ideal) dq da)

abbrev ops : List (HloOp τ sig (Elt F)) :=
  [
    nullary main_cst (fun i => FloatOps.ofBits .f32 (lit0 (S16.rowMajor i))),
    reshape main_arg1 main_v0 rfl shapeCasts_S14336x4096_S58720256,
    nullary main_c (constantI S_ 32 0#32),
    unary main_c main_v1 (broadcastInDim S58720256 ![] bcast_S_S58720256 : (⟨S_, .i32⟩ : BufTy).Contents (Elt F) → (⟨S58720256, .i32⟩ : BufTy).Contents (Elt F)),
    binary main_v0 main_v1 main_v2 (cmpi .slt : (⟨S58720256, .i32⟩ : BufTy).Contents (Elt F) → (⟨S58720256, .i32⟩ : BufTy).Contents (Elt F) → (⟨S58720256, .i1⟩ : BufTy).Contents (Elt F)),
    nullary main_c_0 (constantI S_ 32 16#32),
    unary main_c_0 main_v3 (broadcastInDim S58720256 ![] bcast_S_S58720256 : (⟨S_, .i32⟩ : BufTy).Contents (Elt F) → (⟨S58720256, .i32⟩ : BufTy).Contents (Elt F)),
    binary main_v0 main_v3 main_v4 (addi : (⟨S58720256, .i32⟩ : BufTy).Contents (Elt F) → (⟨S58720256, .i32⟩ : BufTy).Contents (Elt F) → (⟨S58720256, .i32⟩ : BufTy).Contents (Elt F)),
    ternary main_v2 main_v4 main_v0 main_v5 (select : (⟨S58720256, .i1⟩ : BufTy).Contents (Elt F) → (⟨S58720256, .i32⟩ : BufTy).Contents (Elt F) → (⟨S58720256, .i32⟩ : BufTy).Contents (Elt F) → (⟨S58720256, .i32⟩ : BufTy).Contents (Elt F)),
    unary main_v5 main_v6 (broadcastInDim S58720256x1 ![0] bcast_S58720256_S58720256x1_0 : (⟨S58720256, .i32⟩ : BufTy).Contents (Elt F) → (⟨S58720256x1, .i32⟩ : BufTy).Contents (Elt F)),
    binary main_cst main_v6 main_v7 ((fun x i => Host.gather gather_S16_S58720256x1_S58720256_n_0_n_n_0_1_1 x i) : (⟨S16, .f32⟩ : BufTy).Contents (Elt F) → (⟨S58720256x1, .i32⟩ : BufTy).Contents (Elt F) → (⟨S58720256, .f32⟩ : BufTy).Contents (Elt F)),
    reshape main_v7 main_v8 rfl shapeCasts_S58720256_S917504x64,
    unary main_arg2 main_v9 (broadcastInDim S917504x1 ![0] bcast_S917504_S917504x1_0 : (⟨S917504, .f32⟩ : BufTy).Contents (Elt F) → (⟨S917504x1, .f32⟩ : BufTy).Contents (Elt F)),
    unary main_v9 main_v10 (broadcastInDim S917504x64 ![0, 1] bcast_S917504x1_S917504x64_0_1 : (⟨S917504x1, .f32⟩ : BufTy).Contents (Elt F) → (⟨S917504x64, .f32⟩ : BufTy).Contents (Elt F)),
    binary main_v8 main_v10 main_v11 (mulf : (⟨S917504x64, .f32⟩ : BufTy).Contents (Elt F) → (⟨S917504x64, .f32⟩ : BufTy).Contents (Elt F) → (⟨S917504x64, .f32⟩ : BufTy).Contents (Elt F)),
    reshape main_v11 main_v12 rfl shapeCasts_S917504x64_S14336x4096,
    reshape main_arg3 main_v13 rfl shapeCasts_S14336x4096_S58720256,
    nullary main_c_1 (constantI S_ 32 0#32),
    unary main_c_1 main_v14 (broadcastInDim S58720256 ![] bcast_S_S58720256 : (⟨S_, .i32⟩ : BufTy).Contents (Elt F) → (⟨S58720256, .i32⟩ : BufTy).Contents (Elt F)),
    binary main_v13 main_v14 main_v15 (cmpi .slt : (⟨S58720256, .i32⟩ : BufTy).Contents (Elt F) → (⟨S58720256, .i32⟩ : BufTy).Contents (Elt F) → (⟨S58720256, .i1⟩ : BufTy).Contents (Elt F)),
    nullary main_c_2 (constantI S_ 32 16#32),
    unary main_c_2 main_v16 (broadcastInDim S58720256 ![] bcast_S_S58720256 : (⟨S_, .i32⟩ : BufTy).Contents (Elt F) → (⟨S58720256, .i32⟩ : BufTy).Contents (Elt F)),
    binary main_v13 main_v16 main_v17 (addi : (⟨S58720256, .i32⟩ : BufTy).Contents (Elt F) → (⟨S58720256, .i32⟩ : BufTy).Contents (Elt F) → (⟨S58720256, .i32⟩ : BufTy).Contents (Elt F)),
    ternary main_v15 main_v17 main_v13 main_v18 (select : (⟨S58720256, .i1⟩ : BufTy).Contents (Elt F) → (⟨S58720256, .i32⟩ : BufTy).Contents (Elt F) → (⟨S58720256, .i32⟩ : BufTy).Contents (Elt F) → (⟨S58720256, .i32⟩ : BufTy).Contents (Elt F)),
    unary main_v18 main_v19 (broadcastInDim S58720256x1 ![0] bcast_S58720256_S58720256x1_0 : (⟨S58720256, .i32⟩ : BufTy).Contents (Elt F) → (⟨S58720256x1, .i32⟩ : BufTy).Contents (Elt F)),
    binary main_cst main_v19 main_v20 ((fun x i => Host.gather gather_S16_S58720256x1_S58720256_n_0_n_n_0_1_1 x i) : (⟨S16, .f32⟩ : BufTy).Contents (Elt F) → (⟨S58720256x1, .i32⟩ : BufTy).Contents (Elt F) → (⟨S58720256, .f32⟩ : BufTy).Contents (Elt F)),
    reshape main_v20 main_v21 rfl shapeCasts_S58720256_S917504x64,
    unary main_arg4 main_v22 (broadcastInDim S917504x1 ![0] bcast_S917504_S917504x1_0 : (⟨S917504, .f32⟩ : BufTy).Contents (Elt F) → (⟨S917504x1, .f32⟩ : BufTy).Contents (Elt F)),
    unary main_v22 main_v23 (broadcastInDim S917504x64 ![0, 1] bcast_S917504x1_S917504x64_0_1 : (⟨S917504x1, .f32⟩ : BufTy).Contents (Elt F) → (⟨S917504x64, .f32⟩ : BufTy).Contents (Elt F)),
    binary main_v21 main_v23 main_v24 (mulf : (⟨S917504x64, .f32⟩ : BufTy).Contents (Elt F) → (⟨S917504x64, .f32⟩ : BufTy).Contents (Elt F) → (⟨S917504x64, .f32⟩ : BufTy).Contents (Elt F)),
    reshape main_v24 main_v25 rfl shapeCasts_S917504x64_S14336x4096,
    reshape main_arg5 main_v26 rfl shapeCasts_S4096x14336_S58720256,
    nullary main_c_3 (constantI S_ 32 0#32),
    unary main_c_3 main_v27 (broadcastInDim S58720256 ![] bcast_S_S58720256 : (⟨S_, .i32⟩ : BufTy).Contents (Elt F) → (⟨S58720256, .i32⟩ : BufTy).Contents (Elt F)),
    binary main_v26 main_v27 main_v28 (cmpi .slt : (⟨S58720256, .i32⟩ : BufTy).Contents (Elt F) → (⟨S58720256, .i32⟩ : BufTy).Contents (Elt F) → (⟨S58720256, .i1⟩ : BufTy).Contents (Elt F)),
    nullary main_c_4 (constantI S_ 32 16#32),
    unary main_c_4 main_v29 (broadcastInDim S58720256 ![] bcast_S_S58720256 : (⟨S_, .i32⟩ : BufTy).Contents (Elt F) → (⟨S58720256, .i32⟩ : BufTy).Contents (Elt F)),
    binary main_v26 main_v29 main_v30 (addi : (⟨S58720256, .i32⟩ : BufTy).Contents (Elt F) → (⟨S58720256, .i32⟩ : BufTy).Contents (Elt F) → (⟨S58720256, .i32⟩ : BufTy).Contents (Elt F)),
    ternary main_v28 main_v30 main_v26 main_v31 (select : (⟨S58720256, .i1⟩ : BufTy).Contents (Elt F) → (⟨S58720256, .i32⟩ : BufTy).Contents (Elt F) → (⟨S58720256, .i32⟩ : BufTy).Contents (Elt F) → (⟨S58720256, .i32⟩ : BufTy).Contents (Elt F)),
    unary main_v31 main_v32 (broadcastInDim S58720256x1 ![0] bcast_S58720256_S58720256x1_0 : (⟨S58720256, .i32⟩ : BufTy).Contents (Elt F) → (⟨S58720256x1, .i32⟩ : BufTy).Contents (Elt F)),
    binary main_cst main_v32 main_v33 ((fun x i => Host.gather gather_S16_S58720256x1_S58720256_n_0_n_n_0_1_1 x i) : (⟨S16, .f32⟩ : BufTy).Contents (Elt F) → (⟨S58720256x1, .i32⟩ : BufTy).Contents (Elt F) → (⟨S58720256, .f32⟩ : BufTy).Contents (Elt F)),
    reshape main_v33 main_v34 rfl shapeCasts_S58720256_S917504x64,
    unary main_arg6 main_v35 (broadcastInDim S917504x1 ![0] bcast_S917504_S917504x1_0 : (⟨S917504, .f32⟩ : BufTy).Contents (Elt F) → (⟨S917504x1, .f32⟩ : BufTy).Contents (Elt F)),
    unary main_v35 main_v36 (broadcastInDim S917504x64 ![0, 1] bcast_S917504x1_S917504x64_0_1 : (⟨S917504x1, .f32⟩ : BufTy).Contents (Elt F) → (⟨S917504x64, .f32⟩ : BufTy).Contents (Elt F)),
    binary main_v34 main_v36 main_v37 (mulf : (⟨S917504x64, .f32⟩ : BufTy).Contents (Elt F) → (⟨S917504x64, .f32⟩ : BufTy).Contents (Elt F) → (⟨S917504x64, .f32⟩ : BufTy).Contents (Elt F)),
    reshape main_v37 main_v38 rfl shapeCasts_S917504x64_S4096x14336,
    binary main_arg0 main_v12 main_v39 ((fun l r => Host.dotGeneral dot_S2x2048x4096_S14336x4096_S2x2048x14336_2_1_01_0_n_n none l r) : (⟨S2x2048x4096, .f32⟩ : BufTy).Contents (Elt F) → (⟨S14336x4096, .f32⟩ : BufTy).Contents (Elt F) → (⟨S2x2048x14336, .f32⟩ : BufTy).Contents (Elt F)),
    binary main_arg0 main_v25 main_v40 ((fun l r => Host.dotGeneral dot_S2x2048x4096_S14336x4096_S2x2048x14336_2_1_01_0_n_n none l r) : (⟨S2x2048x4096, .f32⟩ : BufTy).Contents (Elt F) → (⟨S14336x4096, .f32⟩ : BufTy).Contents (Elt F) → (⟨S2x2048x14336, .f32⟩ : BufTy).Contents (Elt F)),
    TRef.unary (.of main_v39) main_call0.v0 Host.negf,
    TRef.unary main_call0.v0 main_call0.v1 Host.exp,
    TRef.nullary main_call0.cst (constant S_ .f32 0x3F800000#32),
    TRef.unary main_call0.cst main_call0.v2 (broadcastInDim S2x2048x14336 ![] bcast_S_S2x2048x14336),
    TRef.binary main_call0.v2 main_call0.v1 main_call0.v3 addf,
    TRef.nullary main_call0.cst_0 (constant S_ .f32 0x3F800000#32),
    TRef.unary main_call0.cst_0 main_call0.v4 (broadcastInDim S2x2048x14336 ![] bcast_S_S2x2048x14336),
    TRef.binary main_call0.v4 main_call0.v3 main_call0.v5 Host.divf,
    TRef.binary (.of main_v39) main_call0.v5 main_call0.v6 mulf,
    binary main_v41 main_v40 main_v42 (mulf : (⟨S2x2048x14336, .f32⟩ : BufTy).Contents (Elt F) → (⟨S2x2048x14336, .f32⟩ : BufTy).Contents (Elt F) → (⟨S2x2048x14336, .f32⟩ : BufTy).Contents (Elt F)),
    binary main_v42 main_v38 main_v43 ((fun l r => Host.dotGeneral dot_S2x2048x14336_S4096x14336_S2x2048x4096_2_1_01_0_n_n none l r) : (⟨S2x2048x14336, .f32⟩ : BufTy).Contents (Elt F) → (⟨S4096x14336, .f32⟩ : BufTy).Contents (Elt F) → (⟨S2x2048x4096, .f32⟩ : BufTy).Contents (Elt F)) ]

set_option maxRecDepth 2048 in

theorem main_eq (c : Dev nD) : main (F := F) c = seq ops := by
  simp only [main, fn_silu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    nullary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., reshape_bufs_sub ..,
    unary_bufs_sub .., unary_bufs_sub .., binary_bufs_sub .., reshape_bufs_sub .., reshape_bufs_sub .., nullary_bufs_sub ..,
    unary_bufs_sub .., binary_bufs_sub .., nullary_bufs_sub .., unary_bufs_sub .., binary_bufs_sub .., ternary_bufs_sub ..,
    unary_bufs_sub .., binary_bufs_sub .., reshape_bufs_sub .., unary_bufs_sub .., unary_bufs_sub .., binary_bufs_sub ..,
    reshape_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., reshape_bufs_sub ..,
    unary_bufs_sub .., unary_bufs_sub .., binary_bufs_sub .., reshape_bufs_sub .., binary_bufs_sub .., binary_bufs_sub ..,
    unary_bufs_sub .., unary_bufs_sub .., nullary_bufs_sub .., unary_bufs_sub .., binary_bufs_sub .., nullary_bufs_sub ..,
    unary_bufs_sub .., binary_bufs_sub .., binary_bufs_sub .., binary_bufs_sub .., binary_bufs_sub ..⟩

theorem out_eq (V : Valuation τ sig (Elt Ideal)) :
    after (ops (F := Ideal)) V (main_v43 : DevRef τ sig)
      = res (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) := by
  after_results_simp
  rfl

theorem arg0_eq (V : Valuation τ sig (Elt Ideal)) :
    after (ops (F := Ideal)) V (main_arg0 : DevRef τ sig) = V (main_arg0 : DevRef τ sig) := by
  after_results_simp
theorem arg1_eq (V : Valuation τ sig (Elt Ideal)) :
    after (ops (F := Ideal)) V (main_arg1 : DevRef τ sig) = V (main_arg1 : DevRef τ sig) := by
  after_results_simp
theorem arg2_eq (V : Valuation τ sig (Elt Ideal)) :
    after (ops (F := Ideal)) V (main_arg2 : DevRef τ sig) = V (main_arg2 : DevRef τ sig) := by
  after_results_simp
theorem arg3_eq (V : Valuation τ sig (Elt Ideal)) :
    after (ops (F := Ideal)) V (main_arg3 : DevRef τ sig) = V (main_arg3 : DevRef τ sig) := by
  after_results_simp
theorem arg4_eq (V : Valuation τ sig (Elt Ideal)) :
    after (ops (F := Ideal)) V (main_arg4 : DevRef τ sig) = V (main_arg4 : DevRef τ sig) := by
  after_results_simp
theorem arg5_eq (V : Valuation τ sig (Elt Ideal)) :
    after (ops (F := Ideal)) V (main_arg5 : DevRef τ sig) = V (main_arg5 : DevRef τ sig) := by
  after_results_simp
theorem arg6_eq (V : Valuation τ sig (Elt Ideal)) :
    after (ops (F := Ideal)) V (main_arg6 : DevRef τ sig) = V (main_arg6 : DevRef τ sig) := by
  after_results_simp

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v43) = res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run (defs (F := Ideal)) _ _).mono (fun _ h c => ⟨(h c main_v43).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _)⟩)
    (run_seq scopedRefs_eq scopedSems_eq (defs (F := Ideal)) (main (F := Ideal)) (fun _ => ops) main_eq (fun _ => ops_sub) m ρ)

end Cert.ReferenceIdeal.Hand

end
-- ==== Proof.Ref.Value.lean ====
import proofs.«405638_j50903952392412_1_alg».proof.Proof.Ref.Run
import proofs.«405638_j50903952392412_1_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.Lib.StableHlo.Predicate
import Idealize.ShloMosaic.PureOps.Ideal.Laws

noncomputable section

open scoped BigOperators

namespace Cert.ReferenceIdeal.HandValue

open Cert.ReferenceIdeal Cert.ReferenceIdeal.Gen Cert.ReferenceIdeal.Hand Idealize.ShloMosaic Idealize.ShloMosaic.ValueIdx

theorem lit0_eq (k : Fin 16) : lit0 k = Cert.Spec.tblWord k := by
  fin_cases k <;> rfl

theorem table_apply (k : Fin 16) : table (F := Ideal) (ix1 k) = Ideal.ofBits .f32 (Cert.Spec.tblWord k) := by
  show Ideal.ofBits .f32 (lit0 (S16.rowMajor (ix1 k))) = _
  have h : S16.rowMajor (ix1 k) = k := Fin.ext (Shape.rowMajor_val_one _)
  rw [h, lit0_eq]

theorem wrapCodes_apply (q : IVec S58720256 32) (j : S58720256.Idx) (h : Cert.Spec.InRange (q j)) :
    wrapCodes q j = q j := by
  show Scalar.select (IntOp.cmpi .slt (q j) 0#32) (IntOp.addi (q j) 16#32) (q j) = q j
  have hs : IntOp.cmpi .slt (q j) 0#32 = 0#1 := by
    have : (q j).slt 0#32 = false := by
      rw [BitVec.slt]; simpa using h.1
    unfold IntOp.cmpi; simp only [this]; rfl
  rw [hs]; exact ValueIdx.select_zero _ _

theorem decode_apply (q : IVec S58720256 32) (p : Fin 58720256) (h : Cert.Spec.InRange (q (ix1 p))) :
    decode (F := Ideal) q (ix1 p) = Cert.Spec.code (q (ix1 p)) := by
  have e1 : (ix1 p : S58720256.Idx) = Shape.Idx.ofFin p := by
    funext a; match a with | ⟨0, _⟩ => exact Fin.ext rfl
  have e2 : broadcastInDim S58720256x1 ![0] bcast_S58720256_S58720256x1_0 (wrapCodes q) (StableHlo.Predicate.ixP p) = q (ix1 p) := by
    rw [broadcastInDim_apply ![0] bcast_S58720256_S58720256x1_0 (wrapCodes q) (StableHlo.Predicate.ixP p) (ix1 p) (fun a => by
      match a with
      | ⟨0, _⟩ => exact (if_neg (show ¬ ((58720256 : ℕ) = 1) by decide)).symm)]
    exact wrapCodes_apply q (ix1 p) h
  refine (congrArg (decode (F := Ideal) q) e1).trans ?_
  unfold decode
  rw [StableHlo.Predicate.gather_take gather_S16_S58720256x1_S58720256_n_0_n_n_0_1_1 rfl rfl rfl rfl _ _ p (by decide)]
  refine (congrArg (table (F := Ideal)) (?_ : _ = ix1 (⟨min (q (ix1 p)).toInt.toNat 15, by omega⟩ : Fin 16))).trans (table_apply _)
  funext a
  match a with
  | ⟨0, _⟩ => exact Fin.ext (by show min _ (16 - 1) = min _ 15; rw [e2])

theorem scaled_apply (q : IVec S58720256 32) (a : FVec Ideal S917504 .f32) (R : Fin 917504) (C : Fin 64)
    (p : Fin 58720256) (hp : p.val = R.val * 64 + C.val) (h : Cert.Spec.InRange (q (ix1 p))) :
    scaled (F := Ideal) q a (ix2 R C) = Cert.Spec.code (q (ix1 p)) * a (ix1 R) := by
  unfold scaled
  rw [mulf_apply]
  have e1 : shapeCast S917504x64 (decode (F := Ideal) q) shapeCasts_S58720256_S917504x64 (ix2 R C) = decode (F := Ideal) q (ix1 p) :=
    shapeCast_apply _ _ (ix2 R C) (ix1 p) (by
      rw [Shape.rowMajor_val_one, Shape.rowMajor_val_two]; show p.val = R.val * 64 + C.val; exact hp)
  have e2 : broadcastInDim S917504x64 ![0, 1] bcast_S917504x1_S917504x64_0_1
      (broadcastInDim S917504x1 ![0] bcast_S917504_S917504x1_0 a) (ix2 R C) = a (ix1 R) := by
    rw [broadcastInDim_apply ![0, 1] bcast_S917504x1_S917504x64_0_1 _ (ix2 R C) (ix2 R (0 : Fin 1)) (fun b => by
      match b with
      | ⟨0, _⟩ => exact (if_neg (show ¬ ((917504 : ℕ) = 1) by decide)).symm
      | ⟨1, _⟩ => exact (if_pos rfl).symm)]
    exact broadcastInDim_apply ![0] bcast_S917504_S917504x1_0 a (ix2 R (0 : Fin 1)) (ix1 R) (fun b => by
      match b with
      | ⟨0, _⟩ => exact (if_neg (show ¬ ((917504 : ℕ) = 1) by decide)).symm)
  rw [e1, e2, decode_apply q p h]

theorem wUpMat_apply (q : IVec S14336x4096 32) (a : FVec Ideal S917504 .f32) (hq : ∀ i, Cert.Spec.InRange (q i))
    (r : Fin 14336) (c : Fin 4096) : wUpMat (F := Ideal) q a (ix2 r c) = Cert.Spec.wUp q a r c := by
  have hr := r.isLt; have hc := c.isLt
  unfold wUpMat
  rw [shapeCast_apply _ shapeCasts_S917504x64_S14336x4096 (ix2 r c)
    (ix2 (⟨r.val * 64 + c.val / 64, by omega⟩ : Fin 917504) (⟨c.val % 64, by omega⟩ : Fin 64)) (by
      rw [Shape.rowMajor_val_two, Shape.rowMajor_val_two]
      show (r.val * 64 + c.val / 64) * 64 + c.val % 64 = r.val * 4096 + c.val; omega)]
  have e : shapeCast S58720256 q shapeCasts_S14336x4096_S58720256 (ix1 (⟨r.val * 4096 + c.val, by omega⟩ : Fin 58720256)) = q (ix2 r c) :=
    shapeCast_apply q _ _ (ix2 r c) (by
      rw [Shape.rowMajor_val_one, Shape.rowMajor_val_two]; rfl)
  rw [scaled_apply _ a _ _ (⟨r.val * 4096 + c.val, by omega⟩ : Fin 58720256) (by show r.val * 4096 + c.val = (r.val * 64 + c.val / 64) * 64 + c.val % 64; omega)
    (by rw [e]; exact hq _), e]
  rfl

theorem wDownMat_apply (q : IVec S4096x14336 32) (a : FVec Ideal S917504 .f32) (hq : ∀ i, Cert.Spec.InRange (q i))
    (r : Fin 4096) (c : Fin 14336) : wDownMat (F := Ideal) q a (ix2 r c) = Cert.Spec.wDown q a r c := by
  have hr := r.isLt; have hc := c.isLt
  unfold wDownMat
  rw [shapeCast_apply _ shapeCasts_S917504x64_S4096x14336 (ix2 r c)
    (ix2 (⟨r.val * 224 + c.val / 64, by omega⟩ : Fin 917504) (⟨c.val % 64, by omega⟩ : Fin 64)) (by
      rw [Shape.rowMajor_val_two, Shape.rowMajor_val_two]
      show (r.val * 224 + c.val / 64) * 64 + c.val % 64 = r.val * 14336 + c.val; omega)]
  have e : shapeCast S58720256 q shapeCasts_S4096x14336_S58720256 (ix1 (⟨r.val * 14336 + c.val, by omega⟩ : Fin 58720256)) = q (ix2 r c) :=
    shapeCast_apply q _ _ (ix2 r c) (by
      rw [Shape.rowMajor_val_one, Shape.rowMajor_val_two]; rfl)
  rw [scaled_apply _ a _ _ (⟨r.val * 14336 + c.val, by omega⟩ : Fin 58720256) (by show r.val * 14336 + c.val = (r.val * 224 + c.val / 64) * 64 + c.val % 64; omega)
    (by rw [e]; exact hq _), e]
  rfl

theorem projUp_apply (x : FVec Ideal S2x2048x4096 .f32) (W : FVec Ideal S14336x4096 .f32) (b : Fin 2) (s : Fin 2048) (m : Fin 14336) :
    projUp (F := Ideal) x W (ix3 b s m) = ∑ h : Fin 4096, x (ix3 b s h) * W (ix2 m h) := by
  show FloatOps.dotGeneral dot_S2x2048x4096_S14336x4096_S2x2048x14336_2_1_01_0_n_n none _ x W (ix3 b s m) = _
  rw [Ideal.dotGeneral_apply, ← Equiv.sum_comp (contrEquiv1 dot_S2x2048x4096_S14336x4096_S2x2048x14336_2_1_01_0_n_n 4096 rfl rfl).symm]
  refine Finset.sum_congr rfl fun c _ => ?_
  have c3 := contrEquiv1_symm_val dot_S2x2048x4096_S14336x4096_S2x2048x14336_2_1_01_0_n_n 4096 rfl rfl c
  have l3 : (dot_S2x2048x4096_S14336x4096_S2x2048x14336_2_1_01_0_n_n).lhsIdx (ix3 b s m) ((contrEquiv1 _ 4096 rfl rfl).symm c) = ix3 b s c := by
    funext ax; apply Fin.ext
    match ax with
    | ⟨0, _⟩ => simp [DotDims.lhsIdx, dot_S2x2048x4096_S14336x4096_S2x2048x14336_2_1_01_0_n_n]; rfl
    | ⟨1, _⟩ => simp [DotDims.lhsIdx, dot_S2x2048x4096_S14336x4096_S2x2048x14336_2_1_01_0_n_n]; rfl
    | ⟨2, _⟩ => simp [DotDims.lhsIdx, dot_S2x2048x4096_S14336x4096_S2x2048x14336_2_1_01_0_n_n]; exact c3
  have r3 : (dot_S2x2048x4096_S14336x4096_S2x2048x14336_2_1_01_0_n_n).rhsIdx (ix3 b s m) ((contrEquiv1 _ 4096 rfl rfl).symm c) = ix2 m c := by
    funext ax; apply Fin.ext
    match ax with
    | ⟨0, _⟩ => simp [DotDims.rhsIdx, dot_S2x2048x4096_S14336x4096_S2x2048x14336_2_1_01_0_n_n]; rfl
    | ⟨1, _⟩ => simp [DotDims.rhsIdx, dot_S2x2048x4096_S14336x4096_S2x2048x14336_2_1_01_0_n_n]; exact c3
  rw [l3, r3]

theorem projDown_apply (H : FVec Ideal S2x2048x14336 .f32) (W : FVec Ideal S4096x14336 .f32) (b : Fin 2) (s : Fin 2048) (d : Fin 4096) :
    Host.dotGeneral dot_S2x2048x14336_S4096x14336_S2x2048x4096_2_1_01_0_n_n none H W (ix3 b s d) = ∑ m : Fin 14336, H (ix3 b s m) * W (ix2 d m) := by
  show FloatOps.dotGeneral dot_S2x2048x14336_S4096x14336_S2x2048x4096_2_1_01_0_n_n none _ H W (ix3 b s d) = _
  rw [Ideal.dotGeneral_apply, ← Equiv.sum_comp (contrEquiv1 dot_S2x2048x14336_S4096x14336_S2x2048x4096_2_1_01_0_n_n 14336 rfl rfl).symm]
  refine Finset.sum_congr rfl fun c _ => ?_
  have c3 := contrEquiv1_symm_val dot_S2x2048x14336_S4096x14336_S2x2048x4096_2_1_01_0_n_n 14336 rfl rfl c
  have l3 : (dot_S2x2048x14336_S4096x14336_S2x2048x4096_2_1_01_0_n_n).lhsIdx (ix3 b s d) ((contrEquiv1 _ 14336 rfl rfl).symm c) = ix3 b s c := by
    funext ax; apply Fin.ext
    match ax with
    | ⟨0, _⟩ => simp [DotDims.lhsIdx, dot_S2x2048x14336_S4096x14336_S2x2048x4096_2_1_01_0_n_n]; rfl
    | ⟨1, _⟩ => simp [DotDims.lhsIdx, dot_S2x2048x14336_S4096x14336_S2x2048x4096_2_1_01_0_n_n]; rfl
    | ⟨2, _⟩ => simp [DotDims.lhsIdx, dot_S2x2048x14336_S4096x14336_S2x2048x4096_2_1_01_0_n_n]; exact c3
  have r3 : (dot_S2x2048x14336_S4096x14336_S2x2048x4096_2_1_01_0_n_n).rhsIdx (ix3 b s d) ((contrEquiv1 _ 14336 rfl rfl).symm c) = ix2 d c := by
    funext ax; apply Fin.ext
    match ax with
    | ⟨0, _⟩ => simp [DotDims.rhsIdx, dot_S2x2048x14336_S4096x14336_S2x2048x4096_2_1_01_0_n_n]; rfl
    | ⟨1, _⟩ => simp [DotDims.rhsIdx, dot_S2x2048x14336_S4096x14336_S2x2048x4096_2_1_01_0_n_n]; exact c3
  rw [l3, r3]

theorem siluTerm_apply (g : FVec Ideal S2x2048x14336 .f32) (i : S2x2048x14336.Idx) :
    siluTerm (F := Ideal) g i = g i * Ideal.logistic (g i) := by
  show g i * Ideal.div (Ideal.ofBits .f32 0x3F800000#32) (Ideal.ofBits .f32 0x3F800000#32 + Ideal.exp (-(g i))) = _
  rw [Ideal.ofBits_one_f32]
  rfl

theorem projUp_wUpMat (x : FVec Ideal S2x2048x4096 .f32) (q : IVec S14336x4096 32) (a : FVec Ideal S917504 .f32)
    (hq : ∀ i, Cert.Spec.InRange (q i)) (b : Fin 2) (s : Fin 2048) (m : Fin 14336) :
    projUp (F := Ideal) x (wUpMat (F := Ideal) q a) (ix3 b s m) = Cert.Spec.proj x (Cert.Spec.wUp q a) b s m := by
  rw [projUp_apply]
  exact Finset.sum_congr rfl fun h _ => by rw [wUpMat_apply q a hq]

theorem hiddenTerm_apply (x : FVec Ideal S2x2048x4096 .f32) (gq : IVec S14336x4096 32) (ga : FVec Ideal S917504 .f32)
    (uq : IVec S14336x4096 32) (ua : FVec Ideal S917504 .f32)
    (hg : ∀ i, Cert.Spec.InRange (gq i)) (hu : ∀ i, Cert.Spec.InRange (uq i)) (b : Fin 2) (s : Fin 2048) (m : Fin 14336) :
    hiddenTerm (F := Ideal) x gq ga uq ua (ix3 b s m) = Cert.Spec.hidden x gq ga uq ua b s m := by
  unfold hiddenTerm
  rw [mulf_apply, siluTerm_apply, projUp_wUpMat x gq ga hg, projUp_wUpMat x uq ua hu]
  rfl

theorem res_eq_mlp (x : FVec Ideal S2x2048x4096 .f32) (gq : IVec S14336x4096 32) (ga : FVec Ideal S917504 .f32)
    (uq : IVec S14336x4096 32) (ua : FVec Ideal S917504 .f32) (dq : IVec S4096x14336 32) (da : FVec Ideal S917504 .f32)
    (hg : ∀ i, Cert.Spec.InRange (gq i)) (hu : ∀ i, Cert.Spec.InRange (uq i)) (hd : ∀ i, Cert.Spec.InRange (dq i)) :
    Cert.ReferenceIdeal.Hand.res x gq ga uq ua dq da = Cert.Spec.mlp x gq ga uq ua dq da := by
  funext i
  obtain ⟨b, s, d, rfl⟩ : ∃ (b : Fin 2) (s : Fin 2048) (d : Fin 4096), i = ix3 b s d := ⟨i 0, i 1, i 2, eq_ix3 i⟩
  unfold Cert.ReferenceIdeal.Hand.res
  rw [projDown_apply]
  show _ = ∑ m : Fin 14336, Cert.Spec.hidden x gq ga uq ua b s m * Cert.Spec.wDown dq da d m
  exact Finset.sum_congr rfl fun m _ => by rw [hiddenTerm_apply x gq ga uq ua hg hu, wDownMat_apply dq da hd]

end Cert.ReferenceIdeal.HandValue

end
-- ==== Proof.PreDecode.lean ====
import proofs.«405638_j50903952392412_1_alg».proof.Pre_finite_inputs
import proofs.«405638_j50903952392412_1_alg».proof.Proof.Spec
import Idealize.ShloMosaic.Lib.ReduceAll
import Idealize.ShloMosaic.Lib.StableHlo.Predicate
import Idealize.ShloMosaic.Lib.ValueIdx

namespace Cert.PreDecode

open Idealize.ShloMosaic

instance : Subsingleton Cert.Pre_finite_inputs.S_.Idx := ⟨fun a b => funext fun d => d.elim0⟩

theorem and_split {s : Shape} (x y : IVec s 1) (i : s.Idx) (e : andi x y i = 1#1) : x i = 1#1 ∧ y i = 1#1 :=
  IntOp.andi_eq_one.1 e

theorem inRange_of_all {s : Shape} {axes : List (Fin s.rank)}
    (hb : Cert.Pre_finite_inputs.S_.BroadcastsInDim s (![] : Fin 0 → Fin s.rank))
    (hr : s.ReducesTo axes Cert.Pre_finite_inputs.S_) (h0 : 0 < Cert.Pre_finite_inputs.S_.numel) (a : IVec s 32)
    (e : Host.reduce IntOp.andi
          (andi (cmpi .sge a (broadcastInDim s ![] hb (constantI Cert.Pre_finite_inputs.S_ 32 0#32)))
                (cmpi .slt a (broadcastInDim s ![] hb (constantI Cert.Pre_finite_inputs.S_ 32 16#32))))
          (constantI Cert.Pre_finite_inputs.S_ 1 1#1) hr h0 ValueIdx.ix0 = 1#1) (i : s.Idx) :
    Cert.Spec.InRange (a i) := by
  have hi := Host.reduce_andi_all _ _ hr h0 _ e i
  obtain ⟨h1, h2⟩ := and_split _ _ _ hi

  have h1' : IntOp.cmpi .sge (a i) 0#32 = 1#1 := h1
  have h2' : IntOp.cmpi .slt (a i) 16#32 = 1#1 := h2
  have z : (0#32 : BitVec 32).toInt = 0 := by decide
  have s16 : (16#32 : BitVec 32).toInt = 16 := by decide
  refine ⟨?_, ?_⟩
  · have := IntOp.cmpi_sge.1 h1'; rwa [z] at this
  · have := IntOp.cmpi_slt.1 h2'; rwa [s16] at this

theorem inRange_of_pre [Cert.Pre_finite_inputs.Facts] {F : FTy → Type} [FloatOps F]
    (a0 : FVec F Cert.Pre_finite_inputs.S2x2048x4096 .f32) (a1 : IVec Cert.Pre_finite_inputs.S14336x4096 32) (a2 : FVec F Cert.Pre_finite_inputs.S917504 .f32)
    (a3 : IVec Cert.Pre_finite_inputs.S14336x4096 32) (a4 : FVec F Cert.Pre_finite_inputs.S917504 .f32) (a5 : IVec Cert.Pre_finite_inputs.S4096x14336 32) (a6 : FVec F Cert.Pre_finite_inputs.S917504 .f32)
    (h : Cert.Pre_finite_inputs.fn (F := F) a0 a1 a2 a3 a4 a5 a6 = fun _ => 1#1) :
    (∀ i, Cert.Spec.InRange (a1 i)) ∧ (∀ i, Cert.Spec.InRange (a3 i)) ∧ (∀ i, Cert.Spec.InRange (a5 i)) := by
  have h0 := congrFun h ValueIdx.ix0
  dsimp only [Cert.Pre_finite_inputs.fn, Cert.Pre_finite_inputs.fn_part1, Cert.Pre_finite_inputs.fn_part2] at h0

  obtain ⟨h32, h5⟩ := and_split _ _ _ h0
  obtain ⟨h25, h3⟩ := and_split _ _ _ h32
  obtain ⟨_, h1⟩ := and_split _ _ _ h25
  exact ⟨inRange_of_all _ _ _ a1 h1, inRange_of_all _ _ _ a3 h3, inRange_of_all _ _ _ a5 h5⟩

end Cert.PreDecode
-- ==== Proof.lean ====
/-
  An NF4-dequantised SwiGLU block as two kernels against its plain reference, over the extended reals. Both sides are
  `Cert.Spec.mlp`: for codes in [0, 16) (the precondition) comparing against 1, …, 15 and indexing the table agree;
  block sums add up to the full contraction by associativity and commutativity alone; format changes are the identity;
  both logistics are 1 / (1 + e^(-x)).
-/
import proofs.«405638_j50903952392412_1_alg».proof.Defs
import proofs.«405638_j50903952392412_1_alg».proof.Proof.Gen.Kernel
import proofs.«405638_j50903952392412_1_alg».proof.Proof.Gen.KernelIdeal
import proofs.«405638_j50903952392412_1_alg».proof.Proof.Gen.ReferenceIdeal
import proofs.«405638_j50903952392412_1_alg».proof.Proof.Gen.Pre_finite_inputs
import proofs.«405638_j50903952392412_1_alg».proof.Proof.K.Whole
import proofs.«405638_j50903952392412_1_alg».proof.Proof.KI.Whole
import proofs.«405638_j50903952392412_1_alg».proof.Proof.KI.Value0
import proofs.«405638_j50903952392412_1_alg».proof.Proof.KI.Value1
import proofs.«405638_j50903952392412_1_alg».proof.Proof.KI.Result
import proofs.«405638_j50903952392412_1_alg».proof.Proof.Ref.Run
import proofs.«405638_j50903952392412_1_alg».proof.Proof.Ref.Value
import proofs.«405638_j50903952392412_1_alg».proof.Proof.PreDecode

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Hand.run m ρ)

theorem preserves : Cert.preserves_Kernel_KernelIdeal := trivial

theorem algebraic : Cert.algebraic_KernelIdeal_ReferenceIdeal := by
  intro m ρ m' ρ' hpre hagree
  have hr := fun c => Cert.PreDecode.inRange_of_pre _ _ _ _ _ _ _ (hpre c)
  refine ⟨fun c => Cert.Spec.mlp (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun _ h c => ⟨(h c).1.trans ?_, (h c).2⟩) (Cert.KernelIdeal.Hand.run_result (F := Ideal) m ρ)
    exact Cert.KernelIdeal.Val.result_eq_of m c (Cert.KernelIdeal.Val0.arr0_final (Cert.KernelIdeal.Hand.V1 m) c)
      (Cert.KernelIdeal.Val1.arr1_final (Cert.KernelIdeal.Hand.V2 m) c) (hr c).1 (hr c).2.1 (hr c).2.2
  · refine (θ_run Cert.ReferenceIdeal.defs _ _).mono (fun _ h c => ⟨(h c).1.trans ?_, (h c).2⟩) (Cert.ReferenceIdeal.Hand.run m' ρ')
    rw [(hagree c).1, (hagree c).2.1, (hagree c).2.2.1, (hagree c).2.2.2.1, (hagree c).2.2.2.2.1, (hagree c).2.2.2.2.2.1, (hagree c).2.2.2.2.2.2]
    exact Cert.ReferenceIdeal.HandValue.res_eq_mlp _ _ _ _ _ _ _ (hr c).1 (hr c).2.1 (hr c).2.2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
